-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256x256 : Shape := ⟨2, ![256, 256]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S256x256 .f32) (main_arg5 : FVec F S8192 .f32) (main_arg6 : FVec F S8192 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S8192x512 .f32) (main_arg1 : FVec F S8192x8192 .f32) (main_arg2 : FVec F S8192x8192 .f32) (main_arg3 : FVec F S512x256 .f32) (main_arg4 : FVec F S256x256 .f32) (main_arg5 : FVec F S8192 .f32) (main_arg6 : FVec F S8192 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256x256 : Shape := ⟨2, ![256, 256]⟩
abbrev S8192 : Shape := ⟨1, ![8192]⟩
abbrev S_ : Shape := ⟨0, ![]⟩
abbrev S1x8192 : Shape := ⟨2, ![1, 8192]⟩
abbrev S8192x256 : Shape := ⟨2, ![8192, 256]⟩
abbrev S2048x512 : Shape := ⟨2, ![2048, 512]⟩
abbrev S2048x256 : Shape := ⟨2, ![2048, 256]⟩
abbrev S1024x1024 : Shape := ⟨2, ![1024, 1024]⟩
abbrev S1024x256 : Shape := ⟨2, ![1024, 256]⟩
abbrev S1x1024 : Shape := ⟨2, ![1, 1024]⟩

abbrev nBuf : Space → Nat
  | .hbm => 17
  | .vmem => 46
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S512x256, .f32⟩
  | .hbm, ⟨4, _⟩ => ⟨S256x256, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S1x8192, .f32⟩
  | .hbm, ⟨9, _⟩ => ⟨S1x8192, .f32⟩
  | .hbm, ⟨10, _⟩ => ⟨S1x8192, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S8192x256, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S2048x256, .f32⟩
  | .local _ .vmem, ⟨4, _⟩ => ⟨S2048x256, .f32⟩
  | .local _ .vmem, ⟨5, _⟩ => ⟨S1024x1024, .f32⟩
  | .local _ .vmem, ⟨6, _⟩ => ⟨S1024x1024, .f32⟩
  | .local _ .vmem, ⟨7, _⟩ => ⟨S1024x256, .f32⟩
  | .local _ .vmem, ⟨8, _⟩ => ⟨S1024x256, .f32⟩
  | .local _ .vmem, ⟨9, _⟩ => ⟨S1x1024, .f32⟩
  | .local _ .vmem, ⟨10, _⟩ => ⟨S1x1024, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x1024, .f32⟩
  | .local _ .vmem, ⟨15, _⟩ => ⟨S1024x1024, .f32⟩
  | .local _ .vmem, ⟨16, _⟩ => ⟨S1024x256, .f32⟩
  | .local _ .vmem, ⟨17, _⟩ => ⟨S1024x256, .f32⟩
  | .local _ .vmem, ⟨18, _⟩ => ⟨S1x1024, .f32⟩
  | .local _ .vmem, ⟨19, _⟩ => ⟨S1x1024, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S2048x256, .f32⟩
  | .local _ .vmem, ⟨24, _⟩ => ⟨S2048x256, .f32⟩
  | .local _ .vmem, ⟨25, _⟩ => ⟨S256x256, .f32⟩
  | .local _ .vmem, ⟨26, _⟩ => ⟨S2048x256, .f32⟩
  | .local _ .vmem, ⟨27, _⟩ => ⟨S2048x256, .f32⟩
  | .local _ .vmem, ⟨28, _⟩ => ⟨S1024x1024, .f32⟩
  | .local _ .vmem, ⟨29, _⟩ => ⟨S1024x1024, .f32⟩
  | .local _ .vmem, ⟨30, _⟩ => ⟨S1024x256, .f32⟩
  | .local _ .vmem, ⟨31, _⟩ => ⟨S1024x256, .f32⟩
  | .local _ .vmem, ⟨32, _⟩ => ⟨S1x1024, .f32⟩
  | .local _ .vmem, ⟨33, _⟩ => ⟨S1x1024, .f32⟩
  | .local _ .vmem, ⟨34, _⟩ => ⟨S1024x256, .f32⟩
  | .local _ .vmem, ⟨35, _⟩ => ⟨S1024x256, .f32⟩
  | .local _ .vmem, ⟨36, _⟩ => ⟨S1024x256, .f32⟩
  | .local _ .vmem, ⟨37, _⟩ => ⟨S1024x1024, .f32⟩
  | .local _ .vmem, ⟨38, _⟩ => ⟨S1024x1024, .f32⟩
  | .local _ .vmem, ⟨39, _⟩ => ⟨S1024x256, .f32⟩
  | .local _ .vmem, ⟨40, _⟩ => ⟨S1024x256, .f32⟩
  | .local _ .vmem, ⟨41, _⟩ => ⟨S1x1024, .f32⟩
  | .local _ .vmem, ⟨42, _⟩ => ⟨S1x1024, .f32⟩
  | .local _ .vmem, ⟨43, _⟩ => ⟨S1024x256, .f32⟩
  | .local _ .vmem, ⟨44, _⟩ => ⟨S1024x256, .f32⟩
  | .local _ .vmem, ⟨45, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_scratch0 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg3_1 : Ref sig .tc := ⟨.vmem, 44, rfl⟩
abbrev cc5_scratch0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_10 : BitVec 32 := 0#32
  let v20 : BitVec 1 := Scalar.cmpi .ne v19 c0_i32_10
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_10 : BitVec 32 := 0#32
  let v20 : BitVec 1 := Scalar.cmpi .ne v19 c0_i32_10
  v20

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![8, 8], ![false, false]⟩

def k4_cond2 (i : grid4.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_10 : BitVec 32 := 0#32
  let v20 : BitVec 1 := Scalar.cmpi .ne v19 c0_i32_10
  v20

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1024x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![8, 8], ![false, false]⟩

def k5_cond2 (i : grid5.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_10 : BitVec 32 := 0#32
  let v20 : BitVec 1 := Scalar.cmpi .ne v19 c0_i32_10
  v20

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1024x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S1024x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  bcast_S_S1x8192 : S_.BroadcastsInDim S1x8192 (![] : Fin 0 → Fin S1x8192.rank)
  shapeCasts_S8192_S1x8192 : S8192.ShapeCasts S1x8192
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  dot_S2048x512_S512x256_S2048x256_1_0_0_1_n_n_wf : DotDims.WF S2048x512 S512x256 S2048x256 [1] [0] [0] [1] [] []
  dot_S1024x1024_S1024x256_S1024x256_1_0_0_1_n_n_wf : DotDims.WF S1024x1024 S1024x256 S1024x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .f32 = 32 ∨ (Rect.block (s := S8192x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x8192.size a
  hwx2_2 : ∀ i : grid2.Coords, EltTy.bits .f32 = 32 ∨ (Rect.block (s := S1x8192) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S8192x256.size a
  hwx2_3 : ∀ i : grid2.Coords, EltTy.bits .f32 = 32 ∨ (Rect.block (s := S8192x256) S1024x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S8192x256.size a
  hwx3_0 : ∀ i : grid3.Coords, EltTy.bits .f32 = 32 ∨ (Rect.block (s := S8192x256) S2048x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x256.size a ≤ S8192x256.size a
  hwx3_2 : ∀ i : grid3.Coords, EltTy.bits .f32 = 32 ∨ (Rect.block (s := S8192x256) S2048x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x8192.size a
  hwx4_0 : ∀ i : grid4.Coords, EltTy.bits .f32 = 32 ∨ (Rect.block (s := S8192x8192) S1024x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x256.size a ≤ S8192x256.size a
  hwx4_1 : ∀ i : grid4.Coords, EltTy.bits .f32 = 32 ∨ (Rect.block (s := S8192x256) S1024x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x8192.size a
  hwx4_2 : ∀ i : grid4.Coords, EltTy.bits .f32 = 32 ∨ (Rect.block (s := S1x8192) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x256.size a ≤ S8192x256.size a
  hwx4_3 : ∀ i : grid4.Coords, EltTy.bits .f32 = 32 ∨ (Rect.block (s := S8192x256) S1024x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S8192x8192.size a
  hwx5_0 : ∀ i : grid5.Coords, EltTy.bits .f32 = 32 ∨ (Rect.block (s := S8192x8192) S1024x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x256.size a ≤ S8192x256.size a
  hwx5_1 : ∀ i : grid5.Coords, EltTy.bits .f32 = 32 ∨ (Rect.block (s := S8192x256) S1024x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x8192.size a
  hwx5_2 : ∀ i : grid5.Coords, EltTy.bits .f32 = 32 ∨ (Rect.block (s := S1x8192) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x256.size a ≤ S8192x256.size a
  hwx5_3 : ∀ i : grid5.Coords, EltTy.bits .f32 = 32 ∨ (Rect.block (s := S8192x256) S1024x256.size (cc5_transform_3 i) (hinb5_3 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1024x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v5) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S2048x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg2) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S1024x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v0) S1x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v7) S1024x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_arg1) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v7) S1024x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v2) S1x1024.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v8) S1024x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256x256 : Shape := ⟨2, ![256, 256]⟩
abbrev S8192 : Shape := ⟨1, ![8192]⟩
abbrev S8192x256 : Shape := ⟨2, ![8192, 256]⟩
abbrev S1x8192 : Shape := ⟨2, ![1, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S512x256, .f32⟩
  | .hbm, ⟨4, _⟩ => ⟨S256x256, .f32⟩
  | .hbm, ⟨5, _⟩ => ⟨S8192, .f32⟩
  | .hbm, ⟨6, _⟩ => ⟨S8192, .f32⟩
  | .hbm, ⟨7, _⟩ => ⟨S8192x256, .f32⟩
  | .hbm, ⟨8, _⟩ => ⟨S8192x256, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x256, .f32⟩
  | .hbm, ⟨13, _⟩ => ⟨S_, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x256 : S_.BroadcastsInDim S8192x256 (![] : Fin 0 → Fin S8192x256.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.Spec.lean ====
/-
  The specification: the two-layer graph-wavelet network as functions of matrices over the extended reals.
-/
import Idealize.ShloMosaic.PureOps.Ideal
import Idealize.ShloMosaic.Lib.ValueIdx

noncomputable section

namespace Cert.GWSpec

open Idealize.ShloMosaic Idealize.ShloMosaic.ValueIdx

abbrev Mat (n p : ℕ) : Type := (⟨2, ![n, p]⟩ : Shape).Idx → EReal

abbrev Vect (n : ℕ) : Type := (⟨1, ![n]⟩ : Shape).Idx → EReal

def mm {n k p : ℕ} (A : Mat n k) (B : Mat k p) : Mat n p :=
  fun i => ∑ j : Fin k, A (ix2 (n0 := n) (n1 := k) (i 0) j) * B (ix2 (n0 := k) (n1 := p) j (i 1))

def colScale {n k : ℕ} (U : Mat n k) (f : Vect k) : Mat n k :=
  fun i => U i * f (ix1 (n := k) (i 1))

def posPart {n p : ℕ} (A : Mat n p) : Mat n p := fun i => max (A i) 0

def layer (X : Mat 8192 512) (U Uinv : Mat 8192 8192) (W : Mat 512 256) (f : Vect 8192) : Mat 8192 256 :=
  mm (colScale U f) (mm Uinv (mm X W))

def layer' (X : Mat 8192 256) (U Uinv : Mat 8192 8192) (W : Mat 256 256) (f : Vect 8192) : Mat 8192 256 :=
  mm (colScale U f) (mm Uinv (mm X W))

def net (X : Mat 8192 512) (U Uinv : Mat 8192 8192) (W1 : Mat 512 256) (W2 : Mat 256 256) (f1 f2 : Vect 8192) : Mat 8192 256 :=
  layer' (posPart (layer X U Uinv W1 f1)) U Uinv W2 f2

end Cert.GWSpec

end
-- ==== Proof.RefSide.lean ====
/-
  The reference's run read back stage by stage: its result is the specification's network of its arguments.
-/
import proofs.«113573_j27281632264453_1_alg».proof.Proof.Gen.ReferenceIdeal.Run
import proofs.«113573_j27281632264453_1_alg».proof.Proof.Gen.ReferenceIdeal.Read
import proofs.«113573_j27281632264453_1_alg».proof.Proof.Spec

noncomputable section

namespace Cert.ReferenceIdeal.GW

open Cert.ReferenceIdeal Cert.ReferenceIdeal.Gen Idealize.ShloMosaic Idealize.ShloMosaic.TcCoe Idealize.SL.Sem Idealize.ShloMosaic.StableHlo
open Idealize.ShloMosaic.ValueIdx
open Cert.GWSpec

theorem stage_v0 (a0 : Mat 8192 512) (a3 : Mat 512 256) : Read.val_main_v0 (F := Ideal) a0 a3 = mm a0 a3 := by
  funext i
  rw [Read.val_main_v0_apply]
  show _ = ∑ j : Fin 512, a0 (ix2 (i 0) j) * a3 (ix2 j (i 1))
  refine Finset.sum_congr rfl fun k _ => ?_
  have el : Read.lidx_main_v0 i k = ix2 (i 0) k := funext fun a => match a with | ⟨0, _⟩ => rfl | ⟨1, _⟩ => rfl
  have er : Read.ridx_main_v0 i k = ix2 k (i 1) := funext fun a => match a with | ⟨0, _⟩ => rfl | ⟨1, _⟩ => rfl
  rw [el, er]
  rfl

theorem stage_v1 (a0 : Mat 8192 512) (a2 : Mat 8192 8192) (a3 : Mat 512 256) :
    Read.val_main_v1 (F := Ideal) a0 a2 a3 = mm a2 (mm a0 a3) := by
  funext i
  rw [Read.val_main_v1_apply, stage_v0]
  show _ = ∑ j : Fin 8192, a2 (ix2 (i 0) j) * mm a0 a3 (ix2 j (i 1))
  refine Finset.sum_congr rfl fun k _ => ?_
  have el : Read.lidx_main_v1 i k = ix2 (i 0) k := funext fun a => match a with | ⟨0, _⟩ => rfl | ⟨1, _⟩ => rfl
  have er : Read.ridx_main_v1 i k = ix2 k (i 1) := funext fun a => match a with | ⟨0, _⟩ => rfl | ⟨1, _⟩ => rfl
  rw [el, er]
  rfl

theorem stage_v4 (a1 : Mat 8192 8192) (a5 : Vect 8192) : Read.val_main_v4 (F := Ideal) a1 a5 = colScale a1 a5 := by
  funext i
  rw [Read.val_main_v4_apply, Read.val_main_v3_apply, Read.val_main_v2_apply]
  have e : Read.idx_main_v2 (Read.idx_main_v3 i) = ix1 (i 1) := funext fun a => match a with | ⟨0, _⟩ => rfl
  rw [e]
  rfl

theorem stage_v5 (a0 : Mat 8192 512) (a1 a2 : Mat 8192 8192) (a3 : Mat 512 256) (a5 : Vect 8192) :
    Read.val_main_v5 (F := Ideal) a0 a1 a2 a3 a5 = layer a0 a1 a2 a3 a5 := by
  funext i
  rw [Read.val_main_v5_apply, stage_v4, stage_v1]
  show _ = ∑ j : Fin 8192, colScale a1 a5 (ix2 (i 0) j) * mm a2 (mm a0 a3) (ix2 j (i 1))
  refine Finset.sum_congr rfl fun k _ => ?_
  have el : Read.lidx_main_v5 i k = ix2 (i 0) k := funext fun a => match a with | ⟨0, _⟩ => rfl | ⟨1, _⟩ => rfl
  have er : Read.ridx_main_v5 i k = ix2 k (i 1) := funext fun a => match a with | ⟨0, _⟩ => rfl | ⟨1, _⟩ => rfl
  rw [el, er]
  rfl

theorem stage_v6 (a0 : Mat 8192 512) (a1 a2 : Mat 8192 8192) (a3 : Mat 512 256) (a5 : Vect 8192) :
    Read.val_main_v6 (F := Ideal) a0 a1 a2 a3 a5 = GWSpec.posPart (layer a0 a1 a2 a3 a5) := by
  funext i
  rw [Read.val_main_v6_apply, Read.val_main_call0_v0_apply, Read.val_main_call0_cst_apply, stage_v5]
  show max (layer a0 a1 a2 a3 a5 i) (Ideal.ofBits .f32 0x00000000#32) = max (layer a0 a1 a2 a3 a5 i) 0
  rw [Ideal.ofBits_zero_f32]

theorem stage_v7 (a0 : Mat 8192 512) (a1 a2 : Mat 8192 8192) (a3 : Mat 512 256) (a4 : Mat 256 256) (a5 : Vect 8192) :
    Read.val_main_v7 (F := Ideal) a0 a1 a2 a3 a4 a5 = mm (GWSpec.posPart (layer a0 a1 a2 a3 a5)) a4 := by
  funext i
  rw [Read.val_main_v7_apply, stage_v6]
  show _ = ∑ j : Fin 256, GWSpec.posPart (layer a0 a1 a2 a3 a5) (ix2 (i 0) j) * a4 (ix2 j (i 1))
  refine Finset.sum_congr rfl fun k _ => ?_
  have el : Read.lidx_main_v7 i k = ix2 (i 0) k := funext fun a => match a with | ⟨0, _⟩ => rfl | ⟨1, _⟩ => rfl
  have er : Read.ridx_main_v7 i k = ix2 k (i 1) := funext fun a => match a with | ⟨0, _⟩ => rfl | ⟨1, _⟩ => rfl
  rw [el, er]
  rfl

theorem stage_v8 (a0 : Mat 8192 512) (a1 a2 : Mat 8192 8192) (a3 : Mat 512 256) (a4 : Mat 256 256) (a5 : Vect 8192) :
    Read.val_main_v8 (F := Ideal) a0 a1 a2 a3 a4 a5 = mm a2 (mm (GWSpec.posPart (layer a0 a1 a2 a3 a5)) a4) := by
  funext i
  rw [Read.val_main_v8_apply, stage_v7]
  show _ = ∑ j : Fin 8192, a2 (ix2 (i 0) j) * mm (GWSpec.posPart (layer a0 a1 a2 a3 a5)) a4 (ix2 j (i 1))
  refine Finset.sum_congr rfl fun k _ => ?_
  have el : Read.lidx_main_v8 i k = ix2 (i 0) k := funext fun a => match a with | ⟨0, _⟩ => rfl | ⟨1, _⟩ => rfl
  have er : Read.ridx_main_v8 i k = ix2 k (i 1) := funext fun a => match a with | ⟨0, _⟩ => rfl | ⟨1, _⟩ => rfl
  rw [el, er]
  rfl

theorem stage_v11 (a1 : Mat 8192 8192) (a6 : Vect 8192) : Read.val_main_v11 (F := Ideal) a1 a6 = colScale a1 a6 := by
  funext i
  rw [Read.val_main_v11_apply, Read.val_main_v10_apply, Read.val_main_v9_apply]
  have e : Read.idx_main_v9 (Read.idx_main_v10 i) = ix1 (i 1) := funext fun a => match a with | ⟨0, _⟩ => rfl
  rw [e]
  rfl

theorem stage_v12 (a0 : Mat 8192 512) (a1 a2 : Mat 8192 8192) (a3 : Mat 512 256) (a4 : Mat 256 256) (a5 a6 : Vect 8192) :
    Read.val_main_v12 (F := Ideal) a0 a1 a2 a3 a4 a5 a6 = net a0 a1 a2 a3 a4 a5 a6 := by
  funext i
  rw [Read.val_main_v12_apply, stage_v11, stage_v8]
  show _ = ∑ j : Fin 8192, colScale a1 a6 (ix2 (i 0) j) * mm a2 (mm (GWSpec.posPart (layer a0 a1 a2 a3 a5)) a4) (ix2 j (i 1))
  refine Finset.sum_congr rfl fun k _ => ?_
  have el : Read.lidx_main_v12 i k = ix2 (i 0) k := funext fun a => match a with | ⟨0, _⟩ => rfl | ⟨1, _⟩ => rfl
  have er : Read.ridx_main_v12 i k = ix2 k (i 1) := funext fun a => match a with | ⟨0, _⟩ => rfl | ⟨1, _⟩ => rfl
  rw [el, er]
  rfl

abbrev resultTerm {F : FTy → Type} [FloatOps F] (x0 : (⟨S8192x512, .f32⟩ : BufTy).Contents (Elt F))
    (x1 x2 : (⟨S8192x8192, .f32⟩ : BufTy).Contents (Elt F)) (x3 : (⟨S512x256, .f32⟩ : BufTy).Contents (Elt F))
    (x4 : (⟨S256x256, .f32⟩ : BufTy).Contents (Elt F)) (x5 x6 : (⟨S8192, .f32⟩ : BufTy).Contents (Elt F)) :
    (⟨S8192x256, .f32⟩ : BufTy).Contents (Elt F) :=
  Host.dotGeneral dot_S8192x8192_S8192x256_S8192x256_1_0_0_1_n_n none (mulf (x1) (broadcastInDim S8192x8192 ![0, 1] bcast_S1x8192_S8192x8192_0_1 (broadcastInDim S1x8192 ![1] bcast_S8192_S1x8192_1 (x6)))) (Host.dotGeneral dot_S8192x8192_S8192x256_S8192x256_1_0_0_1_n_n none (x2) (Host.dotGeneral dot_S8192x256_S256x256_S8192x256_1_0_0_1_n_n none (maximumf (Host.dotGeneral dot_S8192x8192_S8192x256_S8192x256_1_0_0_1_n_n none (mulf (x1) (broadcastInDim S8192x8192 ![0, 1] bcast_S1x8192_S8192x8192_0_1 (broadcastInDim S1x8192 ![1] bcast_S8192_S1x8192_1 (x5)))) (Host.dotGeneral dot_S8192x8192_S8192x256_S8192x256_1_0_0_1_n_n none (x2) (Host.dotGeneral dot_S8192x512_S512x256_S8192x256_1_0_0_1_n_n none (x0) (x3)))) (broadcastInDim S8192x256 ![] bcast_S_S8192x256 (constant S_ .f32 0x00000000#32))) (x4)))

theorem result_eq (a0 : Mat 8192 512) (a1 a2 : Mat 8192 8192) (a3 : Mat 512 256) (a4 : Mat 256 256) (a5 a6 : Vect 8192) :
    resultTerm (F := Ideal) a0 a1 a2 a3 a4 a5 a6 = net a0 a1 a2 a3 a4 a5 a6 :=
  (Read.val_main_v12_eq (F := Ideal) a0 a1 a2 a3 a4 a5 a6).trans (stage_v12 a0 a1 a2 a3 a4 a5 a6)

theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v12)
          = net (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4)) (m' ((c.tc : Thread nD τ).loc main_arg5))
              (m' ((c.tc : Thread nD τ).loc main_arg6))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6) :=
  (θ_run (defs (F := Ideal)) _ _).mono
    (fun _ h c => ⟨(h c).1.trans (result_eq (m' ((c.tc : Thread nD τ).loc main_arg0)) (m' ((c.tc : Thread nD τ).loc main_arg1))
        (m' ((c.tc : Thread nD τ).loc main_arg2)) (m' ((c.tc : Thread nD τ).loc main_arg3))
        (m' ((c.tc : Thread nD τ).loc main_arg4)) (m' ((c.tc : Thread nD τ).loc main_arg5))
        (m' ((c.tc : Thread nD τ).loc main_arg6))), (h c).2⟩)
    (Value.run (F := Ideal) m' ρ')

end Cert.ReferenceIdeal.GW

end
-- ==== Proof.Common.lean ====
/-
  Facts about a buffer written through whole-block stores, shared by every kernel region.
-/
import Idealize.ShloMosaic.Lib.Pipeline.FrameBody
import Idealize.ShloMosaic.Lib.Pipeline.Value

noncomputable section

namespace Cert.GW

open Idealize.ShloMosaic Idealize.SL
open Idealize.SL.BI (sProp)
open scoped Idealize.SL.BI
open Idealize.SL.BI.BIBase Idealize.SL.BI.Laws Idealize.SL.ProofMode
open Idealize.SL.RA

theorem zoff : (![0, 0] : Fin 2 → Nat) = fun _ => 0 := funext fun a => by fin_cases a <;> rfl

/-- A store over the whole block, made last, is all that a read sees: it covers every index. -/
theorem read_writes_cons_unit_zero {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

variable {nD : Nat} {τ : Topo} {sig : RefSig} {Val : EltTy → Type}
variable {Ix : Type} [DecidableEq Ix] {Name : Type} [DecidableEq Name] {U : Type} [URA U] {Lvl : Type}

/-- Elements held at contents that read as `X` are the memref owned at `X`. -/
theorem owns_of (c : Thread nD τ) {sp : Space} {sh : Shape} {e : EltTy} (m : Memref sig c.2.kind sp sh e) (q : PosShare TreeShare)
    {f : m.view.ty.Contents Val} {X : sh.Idx → Val e} (h : m.view.read Val f = X) :
    (iprop(m.view.loc c ↦[m.view.set]{q} f) : sProp (MT nD τ sig Ix Val Name U Lvl))
      ⊢ iprop(∃ f', ⌜m.view.read Val f' = X⌝ ∗ (m.view.loc c ↦[m.view.set]{q} f')) := by
  iintro H; iexists f; isplitr; · ipureintro; exact h
  iexact H

end Cert.GW

end
-- ==== Proof.K.Dense0.lean ====
/-
  The first feature map x·W1 as a region: four row blocks of 2048 rows, each one matrix product into a zero accumulator.
-/
import proofs.«113573_j27281632264453_1_alg».proof.Proof.Gen.Kernel.Launch
import proofs.«113573_j27281632264453_1_alg».proof.Proof.Gen.Kernel.Skeleton
import proofs.«113573_j27281632264453_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113573_j27281632264453_1_alg».proof.Proof.Common

set_option maxRecDepth 16384

noncomputable section

namespace Cert.Kernel.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel.Gen Cert.GW

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev outRect0 : Rect S2048x256 := Rect.unit (s := S2048x256) ![0, 0] S2048x256.size inb_S2048x256_S2048x256_0_0

def prodBlock0 (x : Vec F S2048x512 .f32) (wt : Vec F S512x256 .f32) : Vec F S2048x256 .f32 :=
  View.canon [⟨outRect0, k0_pay1 (View.ld x (Rect.unit (s := S2048x512) ![0, 0] S2048x512.size inb_S2048x512_S2048x512_0_0)) (View.ld wt (Rect.unit (s := S512x256) ![0, 0] S512x256.size inb_S512x256_S512x256_0_0))⟩]

theorem prodBlock0_covers (p : Vec F S2048x256 .f32) (y : S2048x256.Idx) :
    ∃ pc ∈ ([⟨outRect0, p⟩] : List (View.Piece (Elt F) S2048x256 .f32)), y ∈ pc.1.set :=
  View.cover_of_tiled [⟨outRect0, p⟩] S2048x256.size (by rfl) y

set_option maxHeartbeats 1000000 in

theorem dense0_runs (c : Dev nD) (E : Set ℕ) (i : grid0.Coords) (arg1 : Memref sig .tc .vmem S2048x512 .f32) (harg1 : arg1.IsWhole)
    (arg2 : Memref sig .tc .vmem S512x256 .f32) (harg2 : arg2.IsWhole) (arg3 : Memref sig .tc .vmem S2048x256 .f32) (harg3 : arg3.IsWhole)
    (x : Vec F S2048x512 .f32) (wt : Vec F S512x256 .f32) (K : PUnit → sProp 𝕄) :
    iprop(owns (c : Thread nD τ) arg1 fullShare x ∗ owns (c : Thread nD τ) arg2 fullShare wt ∗ (∃ d, owns (c : Thread nD τ) arg3 fullShare d)
        ∗ (iprop(owns (c : Thread nD τ) arg1 fullShare x ∗ owns (c : Thread nD τ) arg2 fullShare wt
            ∗ owns (c : Thread nD τ) arg3 fullShare (prodBlock0 x wt)) -∗ K ⟨⟩))
      ⊢ wp frame (wpE (defs₀ (F := F)) Variants.none c none) E (cc0__dense_kernel i arg1 harg1 arg2 harg2 arg3 harg3) K := by
  simp only [cc0__dense_kernel_eq_skeleton]; unfold cc0__dense_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]; · iapply (owns_of _ arg1 _ rfl); iexact H1
  isplitl [H2]; · iapply (owns_of _ arg2 _ rfl); iexact H2
  iexists _; isplitr
  swap; · iexact H3
  ipureintro
  exact View.read_writes_eq_canon _ _ _ (prodBlock0_covers _)

def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => prodBlock0 (blockAt0 V c 0 t) (blockAt0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_rows (c : Dev nD) (t : Fin cfg0.N) : (dat0 V c).after 0 t = blockAt0 V c 0 t := by dsimp only [dat0]
theorem after0_weights (c : Dev nD) (t : Fin cfg0.N) : (dat0 V c).after 1 t = blockAt0 V c 1 t := by dsimp only [dat0]
theorem after0_out (c : Dev nD) (t : Fin cfg0.N) :
    (dat0 V c).after 2 t = prodBlock0 (blockAt0 V c 0 t) (blockAt0 V c 1 t) := by dsimp only [dat0]

theorem before0_rows (c : Dev nD) (t : Fin cfg0.N) (d) : (dat0 V c).before 0 t d = blockAt0 V c 0 t :=
  ((dat0 V c).before_in_eq_fetched 0 rfl (fun _ => rfl) (fun _ _ _ => rfl)
    (fun t => by rw [after0_rows]; unfold Dat.blockOf blockAt0; rw [A_eq0]; try rfl) t d).trans
    (by unfold Dat.fetched Dat.blockOf blockAt0; rw [A_eq0]; try rfl)
theorem before0_weights (c : Dev nD) (t : Fin cfg0.N) (d) : (dat0 V c).before 1 t d = blockAt0 V c 1 t :=
  ((dat0 V c).before_in_eq_fetched 1 rfl (fun _ => rfl) (fun _ _ _ => rfl)
    (fun t => by rw [after0_weights]; unfold Dat.blockOf blockAt0; rw [A_eq0]; try rfl) t d).trans
    (by unfold Dat.fetched Dat.blockOf blockAt0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem body0_at (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_rows, before0_weights]
  rw [show (dat0 V c).Φ t.succ = (dat0 V c).Φ t.castSucc from rfl,
    show (dat0 V c).owesAt () t.succ = (dat0 V c).owesAt () t.castSucc from rfl,
    after0_rows, after0_weights, after0_out]
  iintro ⟨HΦ, Ho, ⟨%d0, H0⟩, ⟨%d1, H1⟩, ⟨%d2, H2⟩⟩
  iapply (dense0_runs c Set.univ _ _ _ _ _ _ _ (blockAt0 V c 0 t) (blockAt0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact body0_at V c t

theorem hin0 (c : Dev nD) : (Pipeline.ΦA spec0 c : sProp 𝕄) ⊢ (dat0 V c).Φ 0 := by
  dsimp only [dat0]; exact BIBase.Entails.rfl
theorem hout0 (c : Dev nD) : (dat0 V c).Φ (Fin.last cfg0.N) ⊢ (Pipeline.ΦA spec0 c : sProp 𝕄) := by
  dsimp only [dat0]; exact BIBase.Entails.rfl

end Cert.Kernel.GW

end
-- ==== Proof.K.SpectralBody1.lean ====
/-
  One grid point of a blocked product with a column scale: the accumulator is zeroed where the contraction starts,
  the block product is added, and the accumulator is copied out where the contraction ends.
-/
import proofs.«113573_j27281632264453_1_alg».proof.Proof.Gen.Kernel.Launch
import proofs.«113573_j27281632264453_1_alg».proof.Proof.Gen.Kernel.Skeleton
import proofs.«113573_j27281632264453_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«113573_j27281632264453_1_alg».proof.Proof.Common

set_option maxRecDepth 16384

noncomputable section

namespace Cert.Kernel.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.GW

variable {F : FTy → Type} [FloatOps F]

local notation "𝕄" => MT nD τ sig Unit (Elt F) ℕ (UR sig nD τ) ℕ

/-- The contraction coordinate is the first: the accumulator is reset. -/
abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

/-- The contraction coordinate is the last: the accumulator is copied out. -/
abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

def flushVal1 (s : Vec F S1024x256 .f32) : Vec F S1024x256 .f32 := s

/-- The accumulator after one point: the block product added to zero at a reset, to what it held otherwise. -/
def acc1 (i : grid1.Coords) (x0 : Vec F S1024x1024 .f32) (x1 : Vec F S1024x256 .f32) (x2 : Vec F S1x1024 .f32)
    (xs : Vec F S1024x256 .f32) : Vec F S1024x256 .f32 :=
  k1_pay2 x0 x2 x1 (if cond1_0 i then k1_pay1 else xs)

/-- The output block's buffer after one point: touched only where the accumulator is copied out. -/
def out1 (i : grid1.Coords) (x0 : Vec F S1024x1024 .f32) (x1 : Vec F S1024x256 .f32) (x2 : Vec F S1x1024 .f32)
    (d3 xs : Vec F S1024x256 .f32) : Vec F S1024x256 .f32 :=
  if cond1_1 i then flushVal1 (acc1 i x0 x1 x2 xs) else d3

section Run

variable (c : Dev nD) (i : grid1.Coords)
  (arg2 : Memref sig .tc .vmem S1024x1024 .f32) (harg2 : arg2.IsWhole) (arg3 : Memref sig .tc .vmem S1024x256 .f32) (harg3 : arg3.IsWhole)
  (arg4 : Memref sig .tc .vmem S1x1024 .f32) (harg4 : arg4.IsWhole) (arg5 : Memref sig .tc .vmem S1024x256 .f32) (harg5 : arg5.IsWhole)
  (arg6 : Memref sig .tc .vmem S1024x256 .f32) (harg6 : arg6.IsWhole)
  (x0 : Vec F S1024x1024 .f32) (x1 : Vec F S1024x256 .f32) (x2 : Vec F S1x1024 .f32) (d3 xs : Vec F S1024x256 .f32)

abbrev runPre1 : sProp 𝕄 :=
  iprop(owns (c : Thread nD τ) arg2 fullShare x0 ∗ owns (c : Thread nD τ) arg3 fullShare x1 ∗ owns (c : Thread nD τ) arg4 fullShare x2
    ∗ owns (c : Thread nD τ) arg5 fullShare d3 ∗ owns (c : Thread nD τ) arg6 fullShare xs)

abbrev runPost1 (o a : Vec F S1024x256 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare o ∗ owns (c : Thread nD τ) arg6 fullShare a)

set_option maxHeartbeats 1000000 in

theorem run1_TT (hc0 : cond1_0 i) (hc1 : cond1_1 i) (E : Set ℕ) (K : PUnit → sProp 𝕄) :
    iprop(runPre1 c arg2 arg3 arg4 arg5 arg6 x0 x1 x2 d3 xs
        ∗ (runPost1 c arg2 arg3 arg4 arg5 arg6 x0 x1 x2 (flushVal1 (k1_pay2 x0 x2 x1 k1_pay1)) (k1_pay2 x0 x2 x1 k1_pay1) -∗ K ⟨⟩))
      ⊢ wp frame (wpE (defs₀ (F := F)) Variants.none c none) E (cc1__big_matmul_kernel i arg2 harg2 arg3 harg3 arg4 harg4 arg5 harg5 arg6 harg6) K := by
  simp only [cc1__big_matmul_kernel_eq_skeleton]; unfold cc1__big_matmul_kernel_skel
  unfold runPre1 runPost1 owns
  iintro ⟨⟨⟨%f0, %hf0, H0⟩, ⟨%f1, %hf1, H1⟩, ⟨%f2, %hf2, H2⟩, ⟨%f3, %hf3, H3⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]; · iapply (owns_of _ arg2 _ hf0); iexact H0
  isplitl [H1]; · iapply (owns_of _ arg3 _ hf1); iexact H1
  isplitl [H2]; · iapply (owns_of _ arg4 _ hf2); iexact H2
  isplitl [H3]
  · iexists _; isplitr
    swap; · iexact H3
    ipureintro
    sl_unfold_run_names
    rw [read_writes_cons_unit_zero _ _ zoff]
    unfold flushVal1
    simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]
  iexists _; isplitr
  swap; · iexact HS
  ipureintro
  sl_unfold_run_names
  rw [read_writes_cons_unit_zero _ _ zoff]
  simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]

set_option maxHeartbeats 1000000 in

theorem run1_TF (hc0 : cond1_0 i) (hc1 : ¬cond1_1 i) (E : Set ℕ) (K : PUnit → sProp 𝕄) :
    iprop(runPre1 c arg2 arg3 arg4 arg5 arg6 x0 x1 x2 d3 xs
        ∗ (runPost1 c arg2 arg3 arg4 arg5 arg6 x0 x1 x2 (d3) (k1_pay2 x0 x2 x1 k1_pay1) -∗ K ⟨⟩))
      ⊢ wp frame (wpE (defs₀ (F := F)) Variants.none c none) E (cc1__big_matmul_kernel i arg2 harg2 arg3 harg3 arg4 harg4 arg5 harg5 arg6 harg6) K := by
  simp only [cc1__big_matmul_kernel_eq_skeleton]; unfold cc1__big_matmul_kernel_skel
  unfold runPre1 runPost1 owns
  iintro ⟨⟨⟨%f0, %hf0, H0⟩, ⟨%f1, %hf1, H1⟩, ⟨%f2, %hf2, H2⟩, ⟨%f3, %hf3, H3⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]; · iapply (owns_of _ arg2 _ hf0); iexact H0
  isplitl [H1]; · iapply (owns_of _ arg3 _ hf1); iexact H1
  isplitl [H2]; · iapply (owns_of _ arg4 _ hf2); iexact H2
  isplitl [H3]; · iapply (owns_of _ arg5 _ hf3); iexact H3
  iexists _; isplitr
  swap; · iexact HS
  ipureintro
  sl_unfold_run_names
  rw [read_writes_cons_unit_zero _ _ zoff]
  simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]

set_option maxHeartbeats 1000000 in

theorem run1_FT (hc0 : ¬cond1_0 i) (hc1 : cond1_1 i) (E : Set ℕ) (K : PUnit → sProp 𝕄) :
    iprop(runPre1 c arg2 arg3 arg4 arg5 arg6 x0 x1 x2 d3 xs
        ∗ (runPost1 c arg2 arg3 arg4 arg5 arg6 x0 x1 x2 (flushVal1 (k1_pay2 x0 x2 x1 xs)) (k1_pay2 x0 x2 x1 xs) -∗ K ⟨⟩))
      ⊢ wp frame (wpE (defs₀ (F := F)) Variants.none c none) E (cc1__big_matmul_kernel i arg2 harg2 arg3 harg3 arg4 harg4 arg5 harg5 arg6 harg6) K := by
  simp only [cc1__big_matmul_kernel_eq_skeleton]; unfold cc1__big_matmul_kernel_skel
  unfold runPre1 runPost1 owns
  iintro ⟨⟨⟨%f0, %hf0, H0⟩, ⟨%f1, %hf1, H1⟩, ⟨%f2, %hf2, H2⟩, ⟨%f3, %hf3, H3⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]; · iapply (owns_of _ arg2 _ hf0); iexact H0
  isplitl [H1]; · iapply (owns_of _ arg3 _ hf1); iexact H1
  isplitl [H2]; · iapply (owns_of _ arg4 _ hf2); iexact H2
  isplitl [H3]
  · iexists _; isplitr
    swap; · iexact H3
    ipureintro
    sl_unfold_run_names
    rw [read_writes_cons_unit_zero _ _ zoff]
    unfold flushVal1
    simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]
  iexists _; isplitr
  swap; · iexact HS
  ipureintro
  sl_unfold_run_names
  rw [read_writes_cons_unit_zero _ _ zoff]
  simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]

set_option maxHeartbeats 1000000 in

theorem run1_FF (hc0 : ¬cond1_0 i) (hc1 : ¬cond1_1 i) (E : Set ℕ) (K : PUnit → sProp 𝕄) :
    iprop(runPre1 c arg2 arg3 arg4 arg5 arg6 x0 x1 x2 d3 xs
        ∗ (runPost1 c arg2 arg3 arg4 arg5 arg6 x0 x1 x2 (d3) (k1_pay2 x0 x2 x1 xs) -∗ K ⟨⟩))
      ⊢ wp frame (wpE (defs₀ (F := F)) Variants.none c none) E (cc1__big_matmul_kernel i arg2 harg2 arg3 harg3 arg4 harg4 arg5 harg5 arg6 harg6) K := by
  simp only [cc1__big_matmul_kernel_eq_skeleton]; unfold cc1__big_matmul_kernel_skel
  unfold runPre1 runPost1 owns
  iintro ⟨⟨⟨%f0, %hf0, H0⟩, ⟨%f1, %hf1, H1⟩, ⟨%f2, %hf2, H2⟩, ⟨%f3, %hf3, H3⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]; · iapply (owns_of _ arg2 _ hf0); iexact H0
  isplitl [H1]; · iapply (owns_of _ arg3 _ hf1); iexact H1
  isplitl [H2]; · iapply (owns_of _ arg4 _ hf2); iexact H2
  isplitl [H3]; · iapply (owns_of _ arg5 _ hf3); iexact H3
  iexists _; isplitr
  swap; · iexact HS
  ipureintro
  sl_unfold_run_names
  rw [read_writes_cons_unit_zero _ _ zoff]
  simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]

/-- The four cases are one statement: the accumulator ends at `acc1`, the output's buffer at `out1`. -/
theorem kernelRun1 (E : Set ℕ) (K : PUnit → sProp 𝕄) :
    iprop(runPre1 c arg2 arg3 arg4 arg5 arg6 x0 x1 x2 d3 xs
        ∗ (runPost1 c arg2 arg3 arg4 arg5 arg6 x0 x1 x2 (out1 i x0 x1 x2 d3 xs) (acc1 i x0 x1 x2 xs) -∗ K ⟨⟩))
      ⊢ wp frame (wpE (defs₀ (F := F)) Variants.none c none) E (cc1__big_matmul_kernel i arg2 harg2 arg3 harg3 arg4 harg4 arg5 harg5 arg6 harg6) K := by
  unfold out1 acc1
  by_cases hc0 : cond1_0 i <;> by_cases hc1 : cond1_1 i
  · rw [if_pos hc0, if_pos hc1]; exact run1_TT c i arg2 harg2 arg3 harg3 arg4 harg4 arg5 harg5 arg6 harg6 x0 x1 x2 d3 xs hc0 hc1 E K
  · rw [if_pos hc0, if_neg hc1]; exact run1_TF c i arg2 harg2 arg3 harg3 arg4 harg4 arg5 harg5 arg6 harg6 x0 x1 x2 d3 xs hc0 hc1 E K
  · rw [if_neg hc0, if_pos hc1]; exact run1_FT c i arg2 harg2 arg3 harg3 arg4 harg4 arg5 harg5 arg6 harg6 x0 x1 x2 d3 xs hc0 hc1 E K
  · rw [if_neg hc0, if_neg hc1]; exact run1_FF c i arg2 harg2 arg3 harg3 arg4 harg4 arg5 harg5 arg6 harg6 x0 x1 x2 d3 xs hc0 hc1 E K

end Run

end Cert.Kernel.GW

end
-- ==== Proof.K.Spectral1.lean ====
/-
  The first layer's inverse transform as a region of the run: an 8×8 grid, the contraction accumulated block by block in a
  scratch array that the region's invariant carries from point to point.
-/
import proofs.«113573_j27281632264453_1_alg».proof.Proof.K.SpectralBody1

set_option maxRecDepth 16384

noncomputable section

namespace Cert.Kernel.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel.Gen Cert.GW

variable {F : FTy → Type} [FloatOps F]

local notation "𝕄" => MT nD τ sig Unit (Elt F) ℕ (UR sig nD τ) ℕ

theorem liveAt1_3 (t : Fin cfg1.N) (h : cond1_1 (grid1.coords t)) : cfg1.idle 3 (grid1.coords t) = false := by
  show (!(k1_cond2 (grid1.coords t) == 1#1)) = false
  rw [show k1_cond2 (grid1.coords t) = 1#1 from h]; rfl

theorem idleAt1_3 (t : Fin cfg1.N) (h : ¬cond1_1 (grid1.coords t)) : cfg1.idle 3 (grid1.coords t) = true := by
  show (!(k1_cond2 (grid1.coords t) == 1#1)) = true
  rw [Bool.not_eq_true', beq_eq_false_iff_ne]; exact h

theorem noFlush1_3 (t : Fin cfg1.N) (h : ¬cond1_1 (grid1.coords t)) : (cfg1.win 3).flush t = false := by
  rw [← Bool.not_eq_true, flush1_3 t, ← hcond1_1 t]; exact h

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the accumulator holds after position `n`: the fold of the body's step from the row's first point. -/
def sAt1 (c : Dev nD) : (n : ℕ) → n < cfg1.N → Vec F S1024x256 .f32
  | 0, hn => k1_pay2 (iblk1 V c 0 ⟨0, hn⟩) (iblk1 V c 2 ⟨0, hn⟩) (iblk1 V c 1 ⟨0, hn⟩) k1_pay1
  | n + 1, hn => k1_pay2 (iblk1 V c 0 ⟨n + 1, hn⟩) (iblk1 V c 2 ⟨n + 1, hn⟩) (iblk1 V c 1 ⟨n + 1, hn⟩)
      (if (n + 1) % 8 = 0 then k1_pay1 else sAt1 c n (Nat.lt_of_succ_lt hn))

theorem sAt1_reset (c : Dev nD) (t : Fin cfg1.N) (h : t.val % 8 = 0) :
    sAt1 V c t.val t.isLt = k1_pay2 (iblk1 V c 0 t) (iblk1 V c 2 t) (iblk1 V c 1 t) k1_pay1 := by
  obtain ⟨n, hn⟩ := t
  cases n with
  | zero => rfl
  | succ n => exact (congrArg (k1_pay2 _ _ _) (if_pos h))

theorem sAt1_step (c : Dev nD) (t : Fin cfg1.N) (h : ¬t.val % 8 = 0) :
    sAt1 V c t.val t.isLt = k1_pay2 (iblk1 V c 0 t) (iblk1 V c 2 t) (iblk1 V c 1 t)
      (sAt1 V c (t.val - 1) (Nat.lt_of_le_of_lt (Nat.sub_le _ _) t.isLt)) := by
  obtain ⟨n, hn⟩ := t
  cases n with
  | zero => exact absurd (Nat.zero_mod _) h
  | succ n => exact (congrArg (k1_pay2 _ _ _) (if_neg h))

theorem acc_eq_sAt1 (c : Dev nD) (t : Fin cfg1.N) (xs : Vec F S1024x256 .f32)
    (hxs : t.val ≠ 0 → xs = sAt1 V c (t.val - 1) (Nat.lt_of_le_of_lt (Nat.sub_le _ _) t.isLt)) :
    acc1 (grid1.coords t) (iblk1 V c 0 t) (iblk1 V c 1 t) (iblk1 V c 2 t) xs = sAt1 V c t.val t.isLt := by
  unfold acc1
  by_cases h : t.val % 8 = 0
  · rw [if_pos ((hcond1_0 t).mpr h), sAt1_reset V c t h]
  · rw [if_neg (fun hc => h ((hcond1_0 t).mp hc)), sAt1_step V c t h, hxs (fun hz => h (by rw [hz]))]

abbrev scM1 : Memref sig .tc .vmem S1024x256 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA; rw [scopedRest1_split]; simp only [scM1, owns_whole]; try rfl

/-- The invariant before position `n`: the accumulator owned at some contents, which from the second position on are
    what the point before left. -/
def PhiS1 (c : Dev nD) (n : ℕ) (hn : n ≤ cfg1.N) : sProp 𝕄 :=
  iprop(∃ xs, ⌜∀ h : n ≠ 0, xs = sAt1 V c (n - 1) (by omega)⌝
    ∗ owns (c : Thread nD τ) scM1 fullShare xs ∗ rest1 c ∗ (∃ r, prngReg c r))

/-- The region's proof data: what the body leaves for each window, and the invariant that carries the accumulator. -/
def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => flushVal1 (sAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = flushVal1 (sAt1 V c t.val t.isLt) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (st1_0 t) fullShare (iblk1 V c 0 t) := by
  unfold Dat.leavesExact; rw [show cfg1.idle 0 (grid1.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (grid1.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (grid1.coords t) = false from rfl, after1_2]

theorem leaves1_3_live (c : Dev nD) (t : Fin cfg1.N) (h : cond1_1 (grid1.coords t)) :
    (dat1 V c).leavesExact 3 t = owns (c : Thread nD τ) (st1_3 t) fullShare (flushVal1 (sAt1 V c t.val t.isLt)) := by
  unfold Dat.leavesExact; rw [liveAt1_3 t h, after1_3]

theorem leaves1_3_idle (c : Dev nD) (t : Fin cfg1.N) (h : ¬cond1_1 (grid1.coords t)) :
    (dat1 V c).leavesExact 3 t = iprop(∃ d, owns (c : Thread nD τ) (st1_3 t) fullShare ((dat1 V c).before 3 t d)) :=
  Dat.leavesExact_idle (dat1 V c) 3 t (idleAt1_3 t h) (noFlush1_3 t h)

set_option maxHeartbeats 1000000 in

/-- The body at any point, from the invariant and the point's blocks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl,
    show (dat1 V c).Φ t.castSucc = PhiS1 V c t.val (Nat.le_of_lt t.isLt) from rfl]
  unfold PhiS1
  rw [leaves1_0, leaves1_1, leaves1_2]
  iintro ⟨⟨%xs, %hxs, HS, HR, Hg⟩, Ho, ⟨%d0, H0⟩, ⟨%d1, H1⟩, ⟨%d2, H2⟩, ⟨%d3, H3⟩⟩
  iapply (kernelRun1 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3))
    scM1 (Memref.isWhole_whole _) (iblk1 V c 0 t) (iblk1 V c 1 t) (iblk1 V c 2 t) ((dat1 V c).before 3 t d3) xs Set.univ _)
  rw [acc_eq_sAt1 V c t xs hxs]
  isplitl [H0 H1 H2 H3 HS]
  · isplitl [H0]; · iexact H0
    isplitl [H1]; · iexact H1
    isplitl [H2]; · iexact H2
    isplitl [H3]; · iexact H3
    iexact HS
  iintro ⟨H0, H1, H2, H3, HS⟩
  isplitl [HS HR Hg]
  · iexists (sAt1 V c t.val t.isLt); isplitr; · ipureintro; exact fun _ => rfl
    isplitl [HS]; · iexact HS
    isplitl [HR]; · iexact HR
    iexact Hg
  isplitl [Ho]; · iexact Ho
  isplitl [H0]; · iexact H0
  isplitl [H1]; · iexact H1
  isplitl [H2]; · iexact H2
  unfold out1
  rw [acc_eq_sAt1 V c t xs hxs]
  by_cases h7 : cond1_1 (grid1.coords t)
  · rw [if_pos h7, leaves1_3_live V c t h7]; iexact H3
  · rw [if_neg h7, leaves1_3_idle V c t h7]; iexists d3; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point: nothing is said of the accumulator there. -/
theorem hin1 (c : Dev nD) : (Pipeline.ΦA spec1 c : sProp 𝕄) ⊢ (dat1 V c).Φ 0 := by
  rw [PhiA1_eq, show (dat1 V c).Φ 0 = PhiS1 V c 0 (Nat.zero_le _) from rfl]
  unfold PhiS1
  iintro ⟨⟨⟨%d, HS⟩, HR⟩, Hg⟩
  iexists d; isplitr; · ipureintro; exact fun h => absurd rfl h
  isplitl [HS]; · iexact HS
  isplitl [HR]; · iexact HR
  iexact Hg

/-- After the last point the accumulator's contents are forgotten again. -/
theorem hout1 (c : Dev nD) : (dat1 V c).Φ (Fin.last cfg1.N) ⊢ (Pipeline.ΦA spec1 c : sProp 𝕄) := by
  rw [PhiA1_eq, show (dat1 V c).Φ (Fin.last cfg1.N) = PhiS1 V c cfg1.N (Nat.le_refl _) from rfl]
  unfold PhiS1
  iintro ⟨%xs, %hxs, HS, HR, Hg⟩
  isplitl [HS HR]
  · isplitl [HS]
    · iexists _; iexact HS
    iexact HR
  iexact Hg

end Cert.Kernel.GW

end
-- ==== Proof.K.SpectralBody2.lean ====
/-
  One grid point of a blocked product with a column scale: the accumulator is zeroed where the contraction starts,
  the block product is added, and the accumulator's positive part is copied out where the contraction ends.
-/
import proofs.«113573_j27281632264453_1_alg».proof.Proof.Gen.Kernel.Launch
import proofs.«113573_j27281632264453_1_alg».proof.Proof.Gen.Kernel.Skeleton
import proofs.«113573_j27281632264453_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«113573_j27281632264453_1_alg».proof.Proof.Common

set_option maxRecDepth 16384

noncomputable section

namespace Cert.Kernel.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.GW

variable {F : FTy → Type} [FloatOps F]

local notation "𝕄" => MT nD τ sig Unit (Elt F) ℕ (UR sig nD τ) ℕ

/-- The contraction coordinate is the first: the accumulator is reset. -/
abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 8 = 0 :=
  (by decide +kernel : ∀ t : Fin grid2.N, cond2_0 (grid2.coords t) ↔ t.val % 8 = 0)

/-- The contraction coordinate is the last: the accumulator is copied out. -/
abbrev cond2_1 (i : grid2.Coords) : Prop := k2_cond2 i = 1#1

theorem hcond2_1 : ∀ t : Fin cfg2.N, cond2_1 (grid2.coords t) ↔ t.val % 8 = 7 :=
  (by decide +kernel : ∀ t : Fin grid2.N, cond2_1 (grid2.coords t) ↔ t.val % 8 = 7)

def flushVal2 (s : Vec F S1024x256 .f32) : Vec F S1024x256 .f32 := k2_pay3 s

/-- The accumulator after one point: the block product added to zero at a reset, to what it held otherwise. -/
def acc2 (i : grid2.Coords) (x0 : Vec F S1024x1024 .f32) (x1 : Vec F S1024x256 .f32) (x2 : Vec F S1x1024 .f32)
    (xs : Vec F S1024x256 .f32) : Vec F S1024x256 .f32 :=
  k2_pay2 x0 x2 x1 (if cond2_0 i then k2_pay1 else xs)

/-- The output block's buffer after one point: touched only where the accumulator is copied out. -/
def out2 (i : grid2.Coords) (x0 : Vec F S1024x1024 .f32) (x1 : Vec F S1024x256 .f32) (x2 : Vec F S1x1024 .f32)
    (d3 xs : Vec F S1024x256 .f32) : Vec F S1024x256 .f32 :=
  if cond2_1 i then flushVal2 (acc2 i x0 x1 x2 xs) else d3

section Run

variable (c : Dev nD) (i : grid2.Coords)
  (arg2 : Memref sig .tc .vmem S1024x1024 .f32) (harg2 : arg2.IsWhole) (arg3 : Memref sig .tc .vmem S1024x256 .f32) (harg3 : arg3.IsWhole)
  (arg4 : Memref sig .tc .vmem S1x1024 .f32) (harg4 : arg4.IsWhole) (arg5 : Memref sig .tc .vmem S1024x256 .f32) (harg5 : arg5.IsWhole)
  (arg6 : Memref sig .tc .vmem S1024x256 .f32) (harg6 : arg6.IsWhole)
  (x0 : Vec F S1024x1024 .f32) (x1 : Vec F S1024x256 .f32) (x2 : Vec F S1x1024 .f32) (d3 xs : Vec F S1024x256 .f32)

abbrev runPre2 : sProp 𝕄 :=
  iprop(owns (c : Thread nD τ) arg2 fullShare x0 ∗ owns (c : Thread nD τ) arg3 fullShare x1 ∗ owns (c : Thread nD τ) arg4 fullShare x2
    ∗ owns (c : Thread nD τ) arg5 fullShare d3 ∗ owns (c : Thread nD τ) arg6 fullShare xs)

abbrev runPost2 (o a : Vec F S1024x256 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare o ∗ owns (c : Thread nD τ) arg6 fullShare a)

set_option maxHeartbeats 1000000 in

theorem run2_TT (hc0 : cond2_0 i) (hc1 : cond2_1 i) (E : Set ℕ) (K : PUnit → sProp 𝕄) :
    iprop(runPre2 c arg2 arg3 arg4 arg5 arg6 x0 x1 x2 d3 xs
        ∗ (runPost2 c arg2 arg3 arg4 arg5 arg6 x0 x1 x2 (flushVal2 (k2_pay2 x0 x2 x1 k2_pay1)) (k2_pay2 x0 x2 x1 k2_pay1) -∗ K ⟨⟩))
      ⊢ wp frame (wpE (defs₀ (F := F)) Variants.none c none) E (cc2__big_matmul_kernel i arg2 harg2 arg3 harg3 arg4 harg4 arg5 harg5 arg6 harg6) K := by
  simp only [cc2__big_matmul_kernel_eq_skeleton]; unfold cc2__big_matmul_kernel_skel
  unfold runPre2 runPost2 owns
  iintro ⟨⟨⟨%f0, %hf0, H0⟩, ⟨%f1, %hf1, H1⟩, ⟨%f2, %hf2, H2⟩, ⟨%f3, %hf3, H3⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]; · iapply (owns_of _ arg2 _ hf0); iexact H0
  isplitl [H1]; · iapply (owns_of _ arg3 _ hf1); iexact H1
  isplitl [H2]; · iapply (owns_of _ arg4 _ hf2); iexact H2
  isplitl [H3]
  · iexists _; isplitr
    swap; · iexact H3
    ipureintro
    sl_unfold_run_names
    rw [read_writes_cons_unit_zero _ _ zoff]
    unfold flushVal2
    simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]
  iexists _; isplitr
  swap; · iexact HS
  ipureintro
  sl_unfold_run_names
  rw [read_writes_cons_unit_zero _ _ zoff]
  simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]

set_option maxHeartbeats 1000000 in

theorem run2_TF (hc0 : cond2_0 i) (hc1 : ¬cond2_1 i) (E : Set ℕ) (K : PUnit → sProp 𝕄) :
    iprop(runPre2 c arg2 arg3 arg4 arg5 arg6 x0 x1 x2 d3 xs
        ∗ (runPost2 c arg2 arg3 arg4 arg5 arg6 x0 x1 x2 (d3) (k2_pay2 x0 x2 x1 k2_pay1) -∗ K ⟨⟩))
      ⊢ wp frame (wpE (defs₀ (F := F)) Variants.none c none) E (cc2__big_matmul_kernel i arg2 harg2 arg3 harg3 arg4 harg4 arg5 harg5 arg6 harg6) K := by
  simp only [cc2__big_matmul_kernel_eq_skeleton]; unfold cc2__big_matmul_kernel_skel
  unfold runPre2 runPost2 owns
  iintro ⟨⟨⟨%f0, %hf0, H0⟩, ⟨%f1, %hf1, H1⟩, ⟨%f2, %hf2, H2⟩, ⟨%f3, %hf3, H3⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]; · iapply (owns_of _ arg2 _ hf0); iexact H0
  isplitl [H1]; · iapply (owns_of _ arg3 _ hf1); iexact H1
  isplitl [H2]; · iapply (owns_of _ arg4 _ hf2); iexact H2
  isplitl [H3]; · iapply (owns_of _ arg5 _ hf3); iexact H3
  iexists _; isplitr
  swap; · iexact HS
  ipureintro
  sl_unfold_run_names
  rw [read_writes_cons_unit_zero _ _ zoff]
  simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]

set_option maxHeartbeats 1000000 in

theorem run2_FT (hc0 : ¬cond2_0 i) (hc1 : cond2_1 i) (E : Set ℕ) (K : PUnit → sProp 𝕄) :
    iprop(runPre2 c arg2 arg3 arg4 arg5 arg6 x0 x1 x2 d3 xs
        ∗ (runPost2 c arg2 arg3 arg4 arg5 arg6 x0 x1 x2 (flushVal2 (k2_pay2 x0 x2 x1 xs)) (k2_pay2 x0 x2 x1 xs) -∗ K ⟨⟩))
      ⊢ wp frame (wpE (defs₀ (F := F)) Variants.none c none) E (cc2__big_matmul_kernel i arg2 harg2 arg3 harg3 arg4 harg4 arg5 harg5 arg6 harg6) K := by
  simp only [cc2__big_matmul_kernel_eq_skeleton]; unfold cc2__big_matmul_kernel_skel
  unfold runPre2 runPost2 owns
  iintro ⟨⟨⟨%f0, %hf0, H0⟩, ⟨%f1, %hf1, H1⟩, ⟨%f2, %hf2, H2⟩, ⟨%f3, %hf3, H3⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]; · iapply (owns_of _ arg2 _ hf0); iexact H0
  isplitl [H1]; · iapply (owns_of _ arg3 _ hf1); iexact H1
  isplitl [H2]; · iapply (owns_of _ arg4 _ hf2); iexact H2
  isplitl [H3]
  · iexists _; isplitr
    swap; · iexact H3
    ipureintro
    sl_unfold_run_names
    rw [read_writes_cons_unit_zero _ _ zoff]
    unfold flushVal2
    simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]
  iexists _; isplitr
  swap; · iexact HS
  ipureintro
  sl_unfold_run_names
  rw [read_writes_cons_unit_zero _ _ zoff]
  simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]

set_option maxHeartbeats 1000000 in

theorem run2_FF (hc0 : ¬cond2_0 i) (hc1 : ¬cond2_1 i) (E : Set ℕ) (K : PUnit → sProp 𝕄) :
    iprop(runPre2 c arg2 arg3 arg4 arg5 arg6 x0 x1 x2 d3 xs
        ∗ (runPost2 c arg2 arg3 arg4 arg5 arg6 x0 x1 x2 (d3) (k2_pay2 x0 x2 x1 xs) -∗ K ⟨⟩))
      ⊢ wp frame (wpE (defs₀ (F := F)) Variants.none c none) E (cc2__big_matmul_kernel i arg2 harg2 arg3 harg3 arg4 harg4 arg5 harg5 arg6 harg6) K := by
  simp only [cc2__big_matmul_kernel_eq_skeleton]; unfold cc2__big_matmul_kernel_skel
  unfold runPre2 runPost2 owns
  iintro ⟨⟨⟨%f0, %hf0, H0⟩, ⟨%f1, %hf1, H1⟩, ⟨%f2, %hf2, H2⟩, ⟨%f3, %hf3, H3⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]; · iapply (owns_of _ arg2 _ hf0); iexact H0
  isplitl [H1]; · iapply (owns_of _ arg3 _ hf1); iexact H1
  isplitl [H2]; · iapply (owns_of _ arg4 _ hf2); iexact H2
  isplitl [H3]; · iapply (owns_of _ arg5 _ hf3); iexact H3
  iexists _; isplitr
  swap; · iexact HS
  ipureintro
  sl_unfold_run_names
  rw [read_writes_cons_unit_zero _ _ zoff]
  simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]

/-- The four cases are one statement: the accumulator ends at `acc2`, the output's buffer at `out2`. -/
theorem kernelRun2 (E : Set ℕ) (K : PUnit → sProp 𝕄) :
    iprop(runPre2 c arg2 arg3 arg4 arg5 arg6 x0 x1 x2 d3 xs
        ∗ (runPost2 c arg2 arg3 arg4 arg5 arg6 x0 x1 x2 (out2 i x0 x1 x2 d3 xs) (acc2 i x0 x1 x2 xs) -∗ K ⟨⟩))
      ⊢ wp frame (wpE (defs₀ (F := F)) Variants.none c none) E (cc2__big_matmul_kernel i arg2 harg2 arg3 harg3 arg4 harg4 arg5 harg5 arg6 harg6) K := by
  unfold out2 acc2
  by_cases hc0 : cond2_0 i <;> by_cases hc1 : cond2_1 i
  · rw [if_pos hc0, if_pos hc1]; exact run2_TT c i arg2 harg2 arg3 harg3 arg4 harg4 arg5 harg5 arg6 harg6 x0 x1 x2 d3 xs hc0 hc1 E K
  · rw [if_pos hc0, if_neg hc1]; exact run2_TF c i arg2 harg2 arg3 harg3 arg4 harg4 arg5 harg5 arg6 harg6 x0 x1 x2 d3 xs hc0 hc1 E K
  · rw [if_neg hc0, if_pos hc1]; exact run2_FT c i arg2 harg2 arg3 harg3 arg4 harg4 arg5 harg5 arg6 harg6 x0 x1 x2 d3 xs hc0 hc1 E K
  · rw [if_neg hc0, if_neg hc1]; exact run2_FF c i arg2 harg2 arg3 harg3 arg4 harg4 arg5 harg5 arg6 harg6 x0 x1 x2 d3 xs hc0 hc1 E K

end Run

end Cert.Kernel.GW

end
-- ==== Proof.K.Spectral2.lean ====
/-
  The first layer's filtered forward transform as a region of the run: an 8×8 grid, the contraction accumulated block by block in a
  scratch array that the region's invariant carries from point to point.
-/
import proofs.«113573_j27281632264453_1_alg».proof.Proof.K.SpectralBody2

set_option maxRecDepth 16384

noncomputable section

namespace Cert.Kernel.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel.Gen Cert.GW

variable {F : FTy → Type} [FloatOps F]

local notation "𝕄" => MT nD τ sig Unit (Elt F) ℕ (UR sig nD τ) ℕ

theorem liveAt2_3 (t : Fin cfg2.N) (h : cond2_1 (grid2.coords t)) : cfg2.idle 3 (grid2.coords t) = false := by
  show (!(k2_cond2 (grid2.coords t) == 1#1)) = false
  rw [show k2_cond2 (grid2.coords t) = 1#1 from h]; rfl

theorem idleAt2_3 (t : Fin cfg2.N) (h : ¬cond2_1 (grid2.coords t)) : cfg2.idle 3 (grid2.coords t) = true := by
  show (!(k2_cond2 (grid2.coords t) == 1#1)) = true
  rw [Bool.not_eq_true', beq_eq_false_iff_ne]; exact h

theorem noFlush2_3 (t : Fin cfg2.N) (h : ¬cond2_1 (grid2.coords t)) : (cfg2.win 3).flush t = false := by
  rw [← Bool.not_eq_true, flush2_3 t, ← hcond2_1 t]; exact h

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the accumulator holds after position `n`: the fold of the body's step from the row's first point. -/
def sAt2 (c : Dev nD) : (n : ℕ) → n < cfg2.N → Vec F S1024x256 .f32
  | 0, hn => k2_pay2 (iblk2 V c 0 ⟨0, hn⟩) (iblk2 V c 2 ⟨0, hn⟩) (iblk2 V c 1 ⟨0, hn⟩) k2_pay1
  | n + 1, hn => k2_pay2 (iblk2 V c 0 ⟨n + 1, hn⟩) (iblk2 V c 2 ⟨n + 1, hn⟩) (iblk2 V c 1 ⟨n + 1, hn⟩)
      (if (n + 1) % 8 = 0 then k2_pay1 else sAt2 c n (Nat.lt_of_succ_lt hn))

theorem sAt2_reset (c : Dev nD) (t : Fin cfg2.N) (h : t.val % 8 = 0) :
    sAt2 V c t.val t.isLt = k2_pay2 (iblk2 V c 0 t) (iblk2 V c 2 t) (iblk2 V c 1 t) k2_pay1 := by
  obtain ⟨n, hn⟩ := t
  cases n with
  | zero => rfl
  | succ n => exact (congrArg (k2_pay2 _ _ _) (if_pos h))

theorem sAt2_step (c : Dev nD) (t : Fin cfg2.N) (h : ¬t.val % 8 = 0) :
    sAt2 V c t.val t.isLt = k2_pay2 (iblk2 V c 0 t) (iblk2 V c 2 t) (iblk2 V c 1 t)
      (sAt2 V c (t.val - 1) (Nat.lt_of_le_of_lt (Nat.sub_le _ _) t.isLt)) := by
  obtain ⟨n, hn⟩ := t
  cases n with
  | zero => exact absurd (Nat.zero_mod _) h
  | succ n => exact (congrArg (k2_pay2 _ _ _) (if_neg h))

theorem acc_eq_sAt2 (c : Dev nD) (t : Fin cfg2.N) (xs : Vec F S1024x256 .f32)
    (hxs : t.val ≠ 0 → xs = sAt2 V c (t.val - 1) (Nat.lt_of_le_of_lt (Nat.sub_le _ _) t.isLt)) :
    acc2 (grid2.coords t) (iblk2 V c 0 t) (iblk2 V c 1 t) (iblk2 V c 2 t) xs = sAt2 V c t.val t.isLt := by
  unfold acc2
  by_cases h : t.val % 8 = 0
  · rw [if_pos ((hcond2_0 t).mpr h), sAt2_reset V c t h]
  · rw [if_neg (fun hc => h ((hcond2_0 t).mp hc)), sAt2_step V c t h, hxs (fun hz => h (by rw [hz]))]

abbrev scM2 : Memref sig .tc .vmem S1024x256 .f32 := Memref.whole cc2_scratch0

abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA; rw [scopedRest2_split]; simp only [scM2, owns_whole]; try rfl

/-- The invariant before position `n`: the accumulator owned at some contents, which from the second position on are
    what the point before left. -/
def PhiS2 (c : Dev nD) (n : ℕ) (hn : n ≤ cfg2.N) : sProp 𝕄 :=
  iprop(∃ xs, ⌜∀ h : n ≠ 0, xs = sAt2 V c (n - 1) (by omega)⌝
    ∗ owns (c : Thread nD τ) scM2 fullShare xs ∗ rest2 c ∗ (∃ r, prngReg c r))

/-- The region's proof data: what the body leaves for each window, and the invariant that carries the accumulator. -/
def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => flushVal2 (sAt2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = flushVal2 (sAt2 V c t.val t.isLt) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) :
    (dat2 V c).leavesExact 0 t = owns (c : Thread nD τ) (st2_0 t) fullShare (iblk2 V c 0 t) := by
  unfold Dat.leavesExact; rw [show cfg2.idle 0 (grid2.coords t) = false from rfl, after2_0]
theorem leaves2_1 (c : Dev nD) (t : Fin cfg2.N) :
    (dat2 V c).leavesExact 1 t = owns (c : Thread nD τ) (st2_1 t) fullShare (iblk2 V c 1 t) := by
  unfold Dat.leavesExact; rw [show cfg2.idle 1 (grid2.coords t) = false from rfl, after2_1]
theorem leaves2_2 (c : Dev nD) (t : Fin cfg2.N) :
    (dat2 V c).leavesExact 2 t = owns (c : Thread nD τ) (st2_2 t) fullShare (iblk2 V c 2 t) := by
  unfold Dat.leavesExact; rw [show cfg2.idle 2 (grid2.coords t) = false from rfl, after2_2]

theorem leaves2_3_live (c : Dev nD) (t : Fin cfg2.N) (h : cond2_1 (grid2.coords t)) :
    (dat2 V c).leavesExact 3 t = owns (c : Thread nD τ) (st2_3 t) fullShare (flushVal2 (sAt2 V c t.val t.isLt)) := by
  unfold Dat.leavesExact; rw [liveAt2_3 t h, after2_3]

theorem leaves2_3_idle (c : Dev nD) (t : Fin cfg2.N) (h : ¬cond2_1 (grid2.coords t)) :
    (dat2 V c).leavesExact 3 t = iprop(∃ d, owns (c : Thread nD τ) (st2_3 t) fullShare ((dat2 V c).before 3 t d)) :=
  Dat.leavesExact_idle (dat2 V c) 3 t (idleAt2_3 t h) (noFlush2_3 t h)

set_option maxHeartbeats 1000000 in

/-- The body at any point, from the invariant and the point's blocks. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl,
    show (dat2 V c).Φ t.castSucc = PhiS2 V c t.val (Nat.le_of_lt t.isLt) from rfl]
  unfold PhiS2
  rw [leaves2_0, leaves2_1, leaves2_2]
  iintro ⟨⟨%xs, %hxs, HS, HR, Hg⟩, Ho, ⟨%d0, H0⟩, ⟨%d1, H1⟩, ⟨%d2, H2⟩, ⟨%d3, H3⟩⟩
  iapply (kernelRun2 c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3))
    scM2 (Memref.isWhole_whole _) (iblk2 V c 0 t) (iblk2 V c 1 t) (iblk2 V c 2 t) ((dat2 V c).before 3 t d3) xs Set.univ _)
  rw [acc_eq_sAt2 V c t xs hxs]
  isplitl [H0 H1 H2 H3 HS]
  · isplitl [H0]; · iexact H0
    isplitl [H1]; · iexact H1
    isplitl [H2]; · iexact H2
    isplitl [H3]; · iexact H3
    iexact HS
  iintro ⟨H0, H1, H2, H3, HS⟩
  isplitl [HS HR Hg]
  · iexists (sAt2 V c t.val t.isLt); isplitr; · ipureintro; exact fun _ => rfl
    isplitl [HS]; · iexact HS
    isplitl [HR]; · iexact HR
    iexact Hg
  isplitl [Ho]; · iexact Ho
  isplitl [H0]; · iexact H0
  isplitl [H1]; · iexact H1
  isplitl [H2]; · iexact H2
  unfold out2
  rw [acc_eq_sAt2 V c t xs hxs]
  by_cases h7 : cond2_1 (grid2.coords t)
  · rw [if_pos h7, leaves2_3_live V c t h7]; iexact H3
  · rw [if_neg h7, leaves2_3_idle V c t h7]; iexists d3; iexact H3

theorem body_obligation2 (c : Dev nD) : BodyObligation (dat2 (F := F) V c) (defs₀ (F := F)) Variants.none () Set.univ := fun t => by
  rw [bigSep_W2, bigSep_W2]
  exact sound_body2 V c t

/-- What the launch hands the region is the invariant before the first point: nothing is said of the accumulator there. -/
theorem hin2 (c : Dev nD) : (Pipeline.ΦA spec2 c : sProp 𝕄) ⊢ (dat2 V c).Φ 0 := by
  rw [PhiA2_eq, show (dat2 V c).Φ 0 = PhiS2 V c 0 (Nat.zero_le _) from rfl]
  unfold PhiS2
  iintro ⟨⟨⟨%d, HS⟩, HR⟩, Hg⟩
  iexists d; isplitr; · ipureintro; exact fun h => absurd rfl h
  isplitl [HS]; · iexact HS
  isplitl [HR]; · iexact HR
  iexact Hg

/-- After the last point the accumulator's contents are forgotten again. -/
theorem hout2 (c : Dev nD) : (dat2 V c).Φ (Fin.last cfg2.N) ⊢ (Pipeline.ΦA spec2 c : sProp 𝕄) := by
  rw [PhiA2_eq, show (dat2 V c).Φ (Fin.last cfg2.N) = PhiS2 V c cfg2.N (Nat.le_refl _) from rfl]
  unfold PhiS2
  iintro ⟨%xs, %hxs, HS, HR, Hg⟩
  isplitl [HS HR]
  · isplitl [HS]
    · iexists _; iexact HS
    iexact HR
  iexact Hg

end Cert.Kernel.GW

end
-- ==== Proof.K.Dense3.lean ====
/-
  The second feature map h·W2 as a region: four row blocks of 2048 rows, each one matrix product into a zero accumulator.
-/
import proofs.«113573_j27281632264453_1_alg».proof.Proof.Gen.Kernel.Launch
import proofs.«113573_j27281632264453_1_alg».proof.Proof.Gen.Kernel.Skeleton
import proofs.«113573_j27281632264453_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113573_j27281632264453_1_alg».proof.Proof.Common

set_option maxRecDepth 16384

noncomputable section

namespace Cert.Kernel.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel.Gen Cert.GW

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev outRect3 : Rect S2048x256 := Rect.unit (s := S2048x256) ![0, 0] S2048x256.size inb_S2048x256_S2048x256_0_0

def prodBlock3 (x : Vec F S2048x256 .f32) (wt : Vec F S256x256 .f32) : Vec F S2048x256 .f32 :=
  View.canon [⟨outRect3, k3_pay1 (View.ld x (Rect.unit (s := S2048x256) ![0, 0] S2048x256.size inb_S2048x256_S2048x256_0_0)) (View.ld wt (Rect.unit (s := S256x256) ![0, 0] S256x256.size inb_S256x256_S256x256_0_0))⟩]

theorem prodBlock3_covers (p : Vec F S2048x256 .f32) (y : S2048x256.Idx) :
    ∃ pc ∈ ([⟨outRect3, p⟩] : List (View.Piece (Elt F) S2048x256 .f32)), y ∈ pc.1.set :=
  View.cover_of_tiled [⟨outRect3, p⟩] S2048x256.size (by rfl) y

set_option maxHeartbeats 1000000 in

theorem dense3_runs (c : Dev nD) (E : Set ℕ) (i : grid3.Coords) (arg1 : Memref sig .tc .vmem S2048x256 .f32) (harg1 : arg1.IsWhole)
    (arg2 : Memref sig .tc .vmem S256x256 .f32) (harg2 : arg2.IsWhole) (arg3 : Memref sig .tc .vmem S2048x256 .f32) (harg3 : arg3.IsWhole)
    (x : Vec F S2048x256 .f32) (wt : Vec F S256x256 .f32) (K : PUnit → sProp 𝕄) :
    iprop(owns (c : Thread nD τ) arg1 fullShare x ∗ owns (c : Thread nD τ) arg2 fullShare wt ∗ (∃ d, owns (c : Thread nD τ) arg3 fullShare d)
        ∗ (iprop(owns (c : Thread nD τ) arg1 fullShare x ∗ owns (c : Thread nD τ) arg2 fullShare wt
            ∗ owns (c : Thread nD τ) arg3 fullShare (prodBlock3 x wt)) -∗ K ⟨⟩))
      ⊢ wp frame (wpE (defs₀ (F := F)) Variants.none c none) E (cc3__dense_kernel i arg1 harg1 arg2 harg2 arg3 harg3) K := by
  simp only [cc3__dense_kernel_eq_skeleton]; unfold cc3__dense_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]; · iapply (owns_of _ arg1 _ rfl); iexact H1
  isplitl [H2]; · iapply (owns_of _ arg2 _ rfl); iexact H2
  iexists _; isplitr
  swap; · iexact H3
  ipureintro
  exact View.read_writes_eq_canon _ _ _ (prodBlock3_covers _)

def dat3 (V : (c : Dev nD) → (b : Ref sig .tc) → Buf (Elt F) ((c : Thread nD τ).loc b)) (c : Dev nD) : Dat τ (Elt F) Unit ℕ (UR sig nD τ) ℕ cfg3 c where
  A w := V c (Pipeline.arrRef spec3 w)
  after w t := match w with
    | ⟨0, _⟩ => blockAt3 V c 0 t
    | ⟨1, _⟩ => blockAt3 V c 1 t
    | ⟨2, _⟩ => prodBlock3 (blockAt3 V c 0 t) (blockAt3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_rows (c : Dev nD) (t : Fin cfg3.N) : (dat3 V c).after 0 t = blockAt3 V c 0 t := by dsimp only [dat3]
theorem after3_weights (c : Dev nD) (t : Fin cfg3.N) : (dat3 V c).after 1 t = blockAt3 V c 1 t := by dsimp only [dat3]
theorem after3_out (c : Dev nD) (t : Fin cfg3.N) :
    (dat3 V c).after 2 t = prodBlock3 (blockAt3 V c 0 t) (blockAt3 V c 1 t) := by dsimp only [dat3]

theorem before3_rows (c : Dev nD) (t : Fin cfg3.N) (d) : (dat3 V c).before 0 t d = blockAt3 V c 0 t :=
  ((dat3 V c).before_in_eq_fetched 0 rfl (fun _ => rfl) (fun _ _ _ => rfl)
    (fun t => by rw [after3_rows]; unfold Dat.blockOf blockAt3; rw [A_eq3]; try rfl) t d).trans
    (by unfold Dat.fetched Dat.blockOf blockAt3; rw [A_eq3]; try rfl)
theorem before3_weights (c : Dev nD) (t : Fin cfg3.N) (d) : (dat3 V c).before 1 t d = blockAt3 V c 1 t :=
  ((dat3 V c).before_in_eq_fetched 1 rfl (fun _ => rfl) (fun _ _ _ => rfl)
    (fun t => by rw [after3_weights]; unfold Dat.blockOf blockAt3; rw [A_eq3]; try rfl) t d).trans
    (by unfold Dat.fetched Dat.blockOf blockAt3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem body3_at (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_rows, before3_weights]
  rw [show (dat3 V c).Φ t.succ = (dat3 V c).Φ t.castSucc from rfl,
    show (dat3 V c).owesAt () t.succ = (dat3 V c).owesAt () t.castSucc from rfl,
    after3_rows, after3_weights, after3_out]
  iintro ⟨HΦ, Ho, ⟨%d0, H0⟩, ⟨%d1, H1⟩, ⟨%d2, H2⟩⟩
  iapply (dense3_runs c Set.univ _ _ _ _ _ _ _ (blockAt3 V c 0 t) (blockAt3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact body3_at V c t

theorem hin3 (c : Dev nD) : (Pipeline.ΦA spec3 c : sProp 𝕄) ⊢ (dat3 V c).Φ 0 := by
  dsimp only [dat3]; exact BIBase.Entails.rfl
theorem hout3 (c : Dev nD) : (dat3 V c).Φ (Fin.last cfg3.N) ⊢ (Pipeline.ΦA spec3 c : sProp 𝕄) := by
  dsimp only [dat3]; exact BIBase.Entails.rfl

end Cert.Kernel.GW

end
-- ==== Proof.K.SpectralBody45.lean ====
/-
  The second layer's two transforms run the kernel function of the first layer's inverse transform, so its triple is theirs.
-/
import proofs.«113573_j27281632264453_1_alg».proof.Proof.K.SpectralBody1

set_option maxRecDepth 16384

noncomputable section

namespace Cert.Kernel.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.GW

variable {F : FTy → Type} [FloatOps F]

local notation "𝕄" => MT nD τ sig Unit (Elt F) ℕ (UR sig nD τ) ℕ

variable (c : Dev nD) (i : grid1.Coords)
  (arg2 : Memref sig .tc .vmem S1024x1024 .f32) (harg2 : arg2.IsWhole) (arg3 : Memref sig .tc .vmem S1024x256 .f32) (harg3 : arg3.IsWhole)
  (arg4 : Memref sig .tc .vmem S1x1024 .f32) (harg4 : arg4.IsWhole) (arg5 : Memref sig .tc .vmem S1024x256 .f32) (harg5 : arg5.IsWhole)
  (arg6 : Memref sig .tc .vmem S1024x256 .f32) (harg6 : arg6.IsWhole)
  (x0 : Vec F S1024x1024 .f32) (x1 : Vec F S1024x256 .f32) (x2 : Vec F S1x1024 .f32) (d3 xs : Vec F S1024x256 .f32)

theorem kernelRun4 (E : Set ℕ) (K : PUnit → sProp 𝕄) :
    iprop(runPre1 c arg2 arg3 arg4 arg5 arg6 x0 x1 x2 d3 xs
        ∗ (runPost1 c arg2 arg3 arg4 arg5 arg6 x0 x1 x2 (out1 i x0 x1 x2 d3 xs) (acc1 i x0 x1 x2 xs) -∗ K ⟨⟩))
      ⊢ wp frame (wpE (defs₀ (F := F)) Variants.none c none) E (cc4__big_matmul_kernel i arg2 harg2 arg3 harg3 arg4 harg4 arg5 harg5 arg6 harg6) K :=
  kernelRun1 c i arg2 harg2 arg3 harg3 arg4 harg4 arg5 harg5 arg6 harg6 x0 x1 x2 d3 xs E K

theorem kernelRun5 (E : Set ℕ) (K : PUnit → sProp 𝕄) :
    iprop(runPre1 c arg2 arg3 arg4 arg5 arg6 x0 x1 x2 d3 xs
        ∗ (runPost1 c arg2 arg3 arg4 arg5 arg6 x0 x1 x2 (out1 i x0 x1 x2 d3 xs) (acc1 i x0 x1 x2 xs) -∗ K ⟨⟩))
      ⊢ wp frame (wpE (defs₀ (F := F)) Variants.none c none) E (cc5__big_matmul_kernel i arg2 harg2 arg3 harg3 arg4 harg4 arg5 harg5 arg6 harg6) K :=
  kernelRun1 c i arg2 harg2 arg3 harg3 arg4 harg4 arg5 harg5 arg6 harg6 x0 x1 x2 d3 xs E K

end Cert.Kernel.GW

end
-- ==== Proof.K.Spectral4.lean ====
/-
  The second layer's inverse transform as a region of the run: an 8×8 grid, the contraction accumulated block by block in a
  scratch array that the region's invariant carries from point to point.
-/
import proofs.«113573_j27281632264453_1_alg».proof.Proof.K.SpectralBody45

set_option maxRecDepth 16384

noncomputable section

namespace Cert.Kernel.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel.Gen Cert.GW

variable {F : FTy → Type} [FloatOps F]

local notation "𝕄" => MT nD τ sig Unit (Elt F) ℕ (UR sig nD τ) ℕ

theorem liveAt4_3 (t : Fin cfg4.N) (h : cond1_1 (grid4.coords t)) : cfg4.idle 3 (grid4.coords t) = false := by
  show (!(k1_cond2 (grid4.coords t) == 1#1)) = false
  rw [show k1_cond2 (grid4.coords t) = 1#1 from h]; rfl

theorem idleAt4_3 (t : Fin cfg4.N) (h : ¬cond1_1 (grid4.coords t)) : cfg4.idle 3 (grid4.coords t) = true := by
  show (!(k1_cond2 (grid4.coords t) == 1#1)) = true
  rw [Bool.not_eq_true', beq_eq_false_iff_ne]; exact h

theorem noFlush4_3 (t : Fin cfg4.N) (h : ¬cond1_1 (grid4.coords t)) : (cfg4.win 3).flush t = false := by
  rw [← Bool.not_eq_true, flush4_3 t, ← hcond1_1 t]; exact h

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the accumulator holds after position `n`: the fold of the body's step from the row's first point. -/
def sAt4 (c : Dev nD) : (n : ℕ) → n < cfg4.N → Vec F S1024x256 .f32
  | 0, hn => k1_pay2 (iblk4 V c 0 ⟨0, hn⟩) (iblk4 V c 2 ⟨0, hn⟩) (iblk4 V c 1 ⟨0, hn⟩) k1_pay1
  | n + 1, hn => k1_pay2 (iblk4 V c 0 ⟨n + 1, hn⟩) (iblk4 V c 2 ⟨n + 1, hn⟩) (iblk4 V c 1 ⟨n + 1, hn⟩)
      (if (n + 1) % 8 = 0 then k1_pay1 else sAt4 c n (Nat.lt_of_succ_lt hn))

theorem sAt4_reset (c : Dev nD) (t : Fin cfg4.N) (h : t.val % 8 = 0) :
    sAt4 V c t.val t.isLt = k1_pay2 (iblk4 V c 0 t) (iblk4 V c 2 t) (iblk4 V c 1 t) k1_pay1 := by
  obtain ⟨n, hn⟩ := t
  cases n with
  | zero => rfl
  | succ n => exact (congrArg (k1_pay2 _ _ _) (if_pos h))

theorem sAt4_step (c : Dev nD) (t : Fin cfg4.N) (h : ¬t.val % 8 = 0) :
    sAt4 V c t.val t.isLt = k1_pay2 (iblk4 V c 0 t) (iblk4 V c 2 t) (iblk4 V c 1 t)
      (sAt4 V c (t.val - 1) (Nat.lt_of_le_of_lt (Nat.sub_le _ _) t.isLt)) := by
  obtain ⟨n, hn⟩ := t
  cases n with
  | zero => exact absurd (Nat.zero_mod _) h
  | succ n => exact (congrArg (k1_pay2 _ _ _) (if_neg h))

theorem acc_eq_sAt4 (c : Dev nD) (t : Fin cfg4.N) (xs : Vec F S1024x256 .f32)
    (hxs : t.val ≠ 0 → xs = sAt4 V c (t.val - 1) (Nat.lt_of_le_of_lt (Nat.sub_le _ _) t.isLt)) :
    acc1 (grid4.coords t) (iblk4 V c 0 t) (iblk4 V c 1 t) (iblk4 V c 2 t) xs = sAt4 V c t.val t.isLt := by
  unfold acc1
  by_cases h : t.val % 8 = 0
  · rw [if_pos ((hcond1_0 t).mpr h), sAt4_reset V c t h]
  · rw [if_neg (fun hc => h ((hcond1_0 t).mp hc)), sAt4_step V c t h, hxs (fun hz => h (by rw [hz]))]

abbrev scM4 : Memref sig .tc .vmem S1024x256 .f32 := Memref.whole cc4_scratch0

abbrev rest4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop((∃ d, owns (c : Thread nD τ) scM4 fullShare d) ∗ rest4 c) ∗ (∃ r, prngReg c r)) := by
  unfold Pipeline.ΦA; rw [scopedRest4_split]; simp only [scM4, owns_whole]; try rfl

/-- The invariant before position `n`: the accumulator owned at some contents, which from the second position on are
    what the point before left. -/
def PhiS4 (c : Dev nD) (n : ℕ) (hn : n ≤ cfg4.N) : sProp 𝕄 :=
  iprop(∃ xs, ⌜∀ h : n ≠ 0, xs = sAt4 V c (n - 1) (by omega)⌝
    ∗ owns (c : Thread nD τ) scM4 fullShare xs ∗ rest4 c ∗ (∃ r, prngReg c r))

/-- The region's proof data: what the body leaves for each window, and the invariant that carries the accumulator. -/
def dat4 (V : (c : Dev nD) → (b : Ref sig .tc) → Buf (Elt F) ((c : Thread nD τ).loc b)) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => flushVal1 (sAt4 V c t.val t.isLt)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = flushVal1 (sAt4 V c t.val t.isLt) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

theorem leaves4_0 (c : Dev nD) (t : Fin cfg4.N) :
    (dat4 V c).leavesExact 0 t = owns (c : Thread nD τ) (st4_0 t) fullShare (iblk4 V c 0 t) := by
  unfold Dat.leavesExact; rw [show cfg4.idle 0 (grid4.coords t) = false from rfl, after4_0]
theorem leaves4_1 (c : Dev nD) (t : Fin cfg4.N) :
    (dat4 V c).leavesExact 1 t = owns (c : Thread nD τ) (st4_1 t) fullShare (iblk4 V c 1 t) := by
  unfold Dat.leavesExact; rw [show cfg4.idle 1 (grid4.coords t) = false from rfl, after4_1]
theorem leaves4_2 (c : Dev nD) (t : Fin cfg4.N) :
    (dat4 V c).leavesExact 2 t = owns (c : Thread nD τ) (st4_2 t) fullShare (iblk4 V c 2 t) := by
  unfold Dat.leavesExact; rw [show cfg4.idle 2 (grid4.coords t) = false from rfl, after4_2]

theorem leaves4_3_live (c : Dev nD) (t : Fin cfg4.N) (h : cond1_1 (grid4.coords t)) :
    (dat4 V c).leavesExact 3 t = owns (c : Thread nD τ) (st4_3 t) fullShare (flushVal1 (sAt4 V c t.val t.isLt)) := by
  unfold Dat.leavesExact; rw [liveAt4_3 t h, after4_3]

theorem leaves4_3_idle (c : Dev nD) (t : Fin cfg4.N) (h : ¬cond1_1 (grid4.coords t)) :
    (dat4 V c).leavesExact 3 t = iprop(∃ d, owns (c : Thread nD τ) (st4_3 t) fullShare ((dat4 V c).before 3 t d)) :=
  Dat.leavesExact_idle (dat4 V c) 3 t (idleAt4_3 t h) (noFlush4_3 t h)

set_option maxHeartbeats 1000000 in

/-- The body at any point, from the invariant and the point's blocks. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl,
    show (dat4 V c).Φ t.castSucc = PhiS4 V c t.val (Nat.le_of_lt t.isLt) from rfl]
  unfold PhiS4
  rw [leaves4_0, leaves4_1, leaves4_2]
  iintro ⟨⟨%xs, %hxs, HS, HR, Hg⟩, Ho, ⟨%d0, H0⟩, ⟨%d1, H1⟩, ⟨%d2, H2⟩, ⟨%d3, H3⟩⟩
  iapply (kernelRun4 c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3))
    scM4 (Memref.isWhole_whole _) (iblk4 V c 0 t) (iblk4 V c 1 t) (iblk4 V c 2 t) ((dat4 V c).before 3 t d3) xs Set.univ _)
  rw [acc_eq_sAt4 V c t xs hxs]
  isplitl [H0 H1 H2 H3 HS]
  · isplitl [H0]; · iexact H0
    isplitl [H1]; · iexact H1
    isplitl [H2]; · iexact H2
    isplitl [H3]; · iexact H3
    iexact HS
  iintro ⟨H0, H1, H2, H3, HS⟩
  isplitl [HS HR Hg]
  · iexists (sAt4 V c t.val t.isLt); isplitr; · ipureintro; exact fun _ => rfl
    isplitl [HS]; · iexact HS
    isplitl [HR]; · iexact HR
    iexact Hg
  isplitl [Ho]; · iexact Ho
  isplitl [H0]; · iexact H0
  isplitl [H1]; · iexact H1
  isplitl [H2]; · iexact H2
  unfold out1
  rw [acc_eq_sAt4 V c t xs hxs]
  by_cases h7 : cond1_1 (grid4.coords t)
  · rw [if_pos h7, leaves4_3_live V c t h7]; iexact H3
  · rw [if_neg h7, leaves4_3_idle V c t h7]; iexists d3; iexact H3

theorem body_obligation4 (c : Dev nD) : BodyObligation (dat4 (F := F) V c) (defs₀ (F := F)) Variants.none () Set.univ := fun t => by
  rw [bigSep_W4, bigSep_W4]
  exact sound_body4 V c t

/-- What the launch hands the region is the invariant before the first point: nothing is said of the accumulator there. -/
theorem hin4 (c : Dev nD) : (Pipeline.ΦA spec4 c : sProp 𝕄) ⊢ (dat4 V c).Φ 0 := by
  rw [PhiA4_eq, show (dat4 V c).Φ 0 = PhiS4 V c 0 (Nat.zero_le _) from rfl]
  unfold PhiS4
  iintro ⟨⟨⟨%d, HS⟩, HR⟩, Hg⟩
  iexists d; isplitr; · ipureintro; exact fun h => absurd rfl h
  isplitl [HS]; · iexact HS
  isplitl [HR]; · iexact HR
  iexact Hg

/-- After the last point the accumulator's contents are forgotten again. -/
theorem hout4 (c : Dev nD) : (dat4 V c).Φ (Fin.last cfg4.N) ⊢ (Pipeline.ΦA spec4 c : sProp 𝕄) := by
  rw [PhiA4_eq, show (dat4 V c).Φ (Fin.last cfg4.N) = PhiS4 V c cfg4.N (Nat.le_refl _) from rfl]
  unfold PhiS4
  iintro ⟨%xs, %hxs, HS, HR, Hg⟩
  isplitl [HS HR]
  · isplitl [HS]
    · iexists _; iexact HS
    iexact HR
  iexact Hg

end Cert.Kernel.GW

end
-- ==== Proof.K.Spectral5.lean ====
/-
  The second layer's filtered forward transform as a region of the run: an 8×8 grid, the contraction accumulated block by block in a
  scratch array that the region's invariant carries from point to point.
-/
import proofs.«113573_j27281632264453_1_alg».proof.Proof.K.SpectralBody45

set_option maxRecDepth 16384

noncomputable section

namespace Cert.Kernel.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel.Gen Cert.GW

variable {F : FTy → Type} [FloatOps F]

local notation "𝕄" => MT nD τ sig Unit (Elt F) ℕ (UR sig nD τ) ℕ

theorem liveAt5_3 (t : Fin cfg5.N) (h : cond1_1 (grid5.coords t)) : cfg5.idle 3 (grid5.coords t) = false := by
  show (!(k1_cond2 (grid5.coords t) == 1#1)) = false
  rw [show k1_cond2 (grid5.coords t) = 1#1 from h]; rfl

theorem idleAt5_3 (t : Fin cfg5.N) (h : ¬cond1_1 (grid5.coords t)) : cfg5.idle 3 (grid5.coords t) = true := by
  show (!(k1_cond2 (grid5.coords t) == 1#1)) = true
  rw [Bool.not_eq_true', beq_eq_false_iff_ne]; exact h

theorem noFlush5_3 (t : Fin cfg5.N) (h : ¬cond1_1 (grid5.coords t)) : (cfg5.win 3).flush t = false := by
  rw [← Bool.not_eq_true, flush5_3 t, ← hcond1_1 t]; exact h

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the accumulator holds after position `n`: the fold of the body's step from the row's first point. -/
def sAt5 (c : Dev nD) : (n : ℕ) → n < cfg5.N → Vec F S1024x256 .f32
  | 0, hn => k1_pay2 (iblk5 V c 0 ⟨0, hn⟩) (iblk5 V c 2 ⟨0, hn⟩) (iblk5 V c 1 ⟨0, hn⟩) k1_pay1
  | n + 1, hn => k1_pay2 (iblk5 V c 0 ⟨n + 1, hn⟩) (iblk5 V c 2 ⟨n + 1, hn⟩) (iblk5 V c 1 ⟨n + 1, hn⟩)
      (if (n + 1) % 8 = 0 then k1_pay1 else sAt5 c n (Nat.lt_of_succ_lt hn))

theorem sAt5_reset (c : Dev nD) (t : Fin cfg5.N) (h : t.val % 8 = 0) :
    sAt5 V c t.val t.isLt = k1_pay2 (iblk5 V c 0 t) (iblk5 V c 2 t) (iblk5 V c 1 t) k1_pay1 := by
  obtain ⟨n, hn⟩ := t
  cases n with
  | zero => rfl
  | succ n => exact (congrArg (k1_pay2 _ _ _) (if_pos h))

theorem sAt5_step (c : Dev nD) (t : Fin cfg5.N) (h : ¬t.val % 8 = 0) :
    sAt5 V c t.val t.isLt = k1_pay2 (iblk5 V c 0 t) (iblk5 V c 2 t) (iblk5 V c 1 t)
      (sAt5 V c (t.val - 1) (Nat.lt_of_le_of_lt (Nat.sub_le _ _) t.isLt)) := by
  obtain ⟨n, hn⟩ := t
  cases n with
  | zero => exact absurd (Nat.zero_mod _) h
  | succ n => exact (congrArg (k1_pay2 _ _ _) (if_neg h))

theorem acc_eq_sAt5 (c : Dev nD) (t : Fin cfg5.N) (xs : Vec F S1024x256 .f32)
    (hxs : t.val ≠ 0 → xs = sAt5 V c (t.val - 1) (Nat.lt_of_le_of_lt (Nat.sub_le _ _) t.isLt)) :
    acc1 (grid5.coords t) (iblk5 V c 0 t) (iblk5 V c 1 t) (iblk5 V c 2 t) xs = sAt5 V c t.val t.isLt := by
  unfold acc1
  by_cases h : t.val % 8 = 0
  · rw [if_pos ((hcond1_0 t).mpr h), sAt5_reset V c t h]
  · rw [if_neg (fun hc => h ((hcond1_0 t).mp hc)), sAt5_step V c t h, hxs (fun hz => h (by rw [hz]))]

abbrev scM5 : Memref sig .tc .vmem S1024x256 .f32 := Memref.whole cc5_scratch0

abbrev rest5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop((∃ d, owns (c : Thread nD τ) scM5 fullShare d) ∗ rest5 c) ∗ (∃ r, prngReg c r)) := by
  unfold Pipeline.ΦA; rw [scopedRest5_split]; simp only [scM5, owns_whole]; try rfl

/-- The invariant before position `n`: the accumulator owned at some contents, which from the second position on are
    what the point before left. -/
def PhiS5 (c : Dev nD) (n : ℕ) (hn : n ≤ cfg5.N) : sProp 𝕄 :=
  iprop(∃ xs, ⌜∀ h : n ≠ 0, xs = sAt5 V c (n - 1) (by omega)⌝
    ∗ owns (c : Thread nD τ) scM5 fullShare xs ∗ rest5 c ∗ (∃ r, prngReg c r))

/-- The region's proof data: what the body leaves for each window, and the invariant that carries the accumulator. -/
def dat5 (V : (c : Dev nD) → (b : Ref sig .tc) → Buf (Elt F) ((c : Thread nD τ).loc b)) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => flushVal1 (sAt5 V c t.val t.isLt)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = flushVal1 (sAt5 V c t.val t.isLt) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

theorem leaves5_0 (c : Dev nD) (t : Fin cfg5.N) :
    (dat5 V c).leavesExact 0 t = owns (c : Thread nD τ) (st5_0 t) fullShare (iblk5 V c 0 t) := by
  unfold Dat.leavesExact; rw [show cfg5.idle 0 (grid5.coords t) = false from rfl, after5_0]
theorem leaves5_1 (c : Dev nD) (t : Fin cfg5.N) :
    (dat5 V c).leavesExact 1 t = owns (c : Thread nD τ) (st5_1 t) fullShare (iblk5 V c 1 t) := by
  unfold Dat.leavesExact; rw [show cfg5.idle 1 (grid5.coords t) = false from rfl, after5_1]
theorem leaves5_2 (c : Dev nD) (t : Fin cfg5.N) :
    (dat5 V c).leavesExact 2 t = owns (c : Thread nD τ) (st5_2 t) fullShare (iblk5 V c 2 t) := by
  unfold Dat.leavesExact; rw [show cfg5.idle 2 (grid5.coords t) = false from rfl, after5_2]

theorem leaves5_3_live (c : Dev nD) (t : Fin cfg5.N) (h : cond1_1 (grid5.coords t)) :
    (dat5 V c).leavesExact 3 t = owns (c : Thread nD τ) (st5_3 t) fullShare (flushVal1 (sAt5 V c t.val t.isLt)) := by
  unfold Dat.leavesExact; rw [liveAt5_3 t h, after5_3]

theorem leaves5_3_idle (c : Dev nD) (t : Fin cfg5.N) (h : ¬cond1_1 (grid5.coords t)) :
    (dat5 V c).leavesExact 3 t = iprop(∃ d, owns (c : Thread nD τ) (st5_3 t) fullShare ((dat5 V c).before 3 t d)) :=
  Dat.leavesExact_idle (dat5 V c) 3 t (idleAt5_3 t h) (noFlush5_3 t h)

set_option maxHeartbeats 1000000 in

/-- The body at any point, from the invariant and the point's blocks. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl,
    show (dat5 V c).Φ t.castSucc = PhiS5 V c t.val (Nat.le_of_lt t.isLt) from rfl]
  unfold PhiS5
  rw [leaves5_0, leaves5_1, leaves5_2]
  iintro ⟨⟨%xs, %hxs, HS, HR, Hg⟩, Ho, ⟨%d0, H0⟩, ⟨%d1, H1⟩, ⟨%d2, H2⟩, ⟨%d3, H3⟩⟩
  iapply (kernelRun5 c (grid5.coords t) (st5_0 t) (hstage5_0 ((cfg5.slots t 0).cast nbuf5_0)) (st5_1 t) (hstage5_1 ((cfg5.slots t 1).cast nbuf5_1)) (st5_2 t) (hstage5_2 ((cfg5.slots t 2).cast nbuf5_2)) (st5_3 t) (hstage5_3 ((cfg5.slots t 3).cast nbuf5_3))
    scM5 (Memref.isWhole_whole _) (iblk5 V c 0 t) (iblk5 V c 1 t) (iblk5 V c 2 t) ((dat5 V c).before 3 t d3) xs Set.univ _)
  rw [acc_eq_sAt5 V c t xs hxs]
  isplitl [H0 H1 H2 H3 HS]
  · isplitl [H0]; · iexact H0
    isplitl [H1]; · iexact H1
    isplitl [H2]; · iexact H2
    isplitl [H3]; · iexact H3
    iexact HS
  iintro ⟨H0, H1, H2, H3, HS⟩
  isplitl [HS HR Hg]
  · iexists (sAt5 V c t.val t.isLt); isplitr; · ipureintro; exact fun _ => rfl
    isplitl [HS]; · iexact HS
    isplitl [HR]; · iexact HR
    iexact Hg
  isplitl [Ho]; · iexact Ho
  isplitl [H0]; · iexact H0
  isplitl [H1]; · iexact H1
  isplitl [H2]; · iexact H2
  unfold out1
  rw [acc_eq_sAt5 V c t xs hxs]
  by_cases h7 : cond1_1 (grid5.coords t)
  · rw [if_pos h7, leaves5_3_live V c t h7]; iexact H3
  · rw [if_neg h7, leaves5_3_idle V c t h7]; iexists d3; iexact H3

theorem body_obligation5 (c : Dev nD) : BodyObligation (dat5 (F := F) V c) (defs₀ (F := F)) Variants.none () Set.univ := fun t => by
  rw [bigSep_W5, bigSep_W5]
  exact sound_body5 V c t

/-- What the launch hands the region is the invariant before the first point: nothing is said of the accumulator there. -/
theorem hin5 (c : Dev nD) : (Pipeline.ΦA spec5 c : sProp 𝕄) ⊢ (dat5 V c).Φ 0 := by
  rw [PhiA5_eq, show (dat5 V c).Φ 0 = PhiS5 V c 0 (Nat.zero_le _) from rfl]
  unfold PhiS5
  iintro ⟨⟨⟨%d, HS⟩, HR⟩, Hg⟩
  iexists d; isplitr; · ipureintro; exact fun h => absurd rfl h
  isplitl [HS]; · iexact HS
  isplitl [HR]; · iexact HR
  iexact Hg

/-- After the last point the accumulator's contents are forgotten again. -/
theorem hout5 (c : Dev nD) : (dat5 V c).Φ (Fin.last cfg5.N) ⊢ (Pipeline.ΦA spec5 c : sProp 𝕄) := by
  rw [PhiA5_eq, show (dat5 V c).Φ (Fin.last cfg5.N) = PhiS5 V c cfg5.N (Nat.le_refl _) from rfl]
  unfold PhiS5
  iintro ⟨%xs, %hxs, HS, HR, Hg⟩
  isplitl [HS HR]
  · isplitl [HS]
    · iexists _; iexact HS
    iexact HR
  iexact Hg

end Cert.Kernel.GW

end
-- ==== Proof.K.Contents.lean ====
/-
  The buffer contents along the run: each region is entered from what its predecessor was entered from, with the
  predecessor's output array replaced by what it leaves.
-/
import proofs.«113573_j27281632264453_1_alg».proof.Proof.Gen.Kernel.Regions
import proofs.«113573_j27281632264453_1_alg».proof.Proof.K.Dense0
import proofs.«113573_j27281632264453_1_alg».proof.Proof.K.Spectral1
import proofs.«113573_j27281632264453_1_alg».proof.Proof.K.Spectral2
import proofs.«113573_j27281632264453_1_alg».proof.Proof.K.Dense3
import proofs.«113573_j27281632264453_1_alg».proof.Proof.K.Spectral4
import proofs.«113573_j27281632264453_1_alg».proof.Proof.K.Spectral5

set_option maxRecDepth 16384

noncomputable section

namespace Cert.Kernel.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Kernel.Gen

variable {F : FTy → Type} [FloatOps F]

local notation "𝕄" => MT nD τ sig Unit (Elt F) ℕ (UR sig nD τ) ℕ

variable (m : (ℓ : Loc nD τ sig) → Buf (Elt F) ℓ)

abbrev Conts : Type := (c : Dev nD) → (b : Ref sig .tc) → Buf (Elt F) ((c : Thread nD τ).loc b)

def En0 : Conts (F := F) := fun c b => Gen.V1 m c b

def res0 (c : Dev nD) : Buf (Elt F) ((c : Thread nD τ).loc main_v3) := (dat0 (En0 m) c).arrAt 2 cfg0.N

def En1 : Conts (F := F) := fun c => Function.update (En0 m c) main_v3 (res0 m c)

def res1 (c : Dev nD) : Buf (Elt F) ((c : Thread nD τ).loc main_v4) := (dat1 (En1 m) c).arrAt 3 cfg1.N

def En2 : Conts (F := F) := fun c => Function.update (En1 m c) main_v4 (res1 m c)

def res2 (c : Dev nD) : Buf (Elt F) ((c : Thread nD τ).loc main_v5) := (dat2 (En2 m) c).arrAt 3 cfg2.N

def En3 : Conts (F := F) := fun c => Function.update (En2 m c) main_v5 (res2 m c)

def res3 (c : Dev nD) : Buf (Elt F) ((c : Thread nD τ).loc main_v6) := (dat3 (En3 m) c).arrAt 2 cfg3.N

def En4 : Conts (F := F) := fun c => Function.update (En3 m c) main_v6 (res3 m c)

def res4 (c : Dev nD) : Buf (Elt F) ((c : Thread nD τ).loc main_v7) := (dat4 (En4 m) c).arrAt 3 cfg4.N

def En5 : Conts (F := F) := fun c => Function.update (En4 m c) main_v7 (res4 m c)

def res5 (c : Dev nD) : Buf (Elt F) ((c : Thread nD τ).loc main_v8) := (dat5 (En5 m) c).arrAt 3 cfg5.N

def En6 : Conts (F := F) := fun c => Function.update (En5 m c) main_v8 (res5 m c)

def outs : Gen.Outs (F := F) := fun J r c =>
  match J with
  | 2 => En1 m c r
  | 3 => En2 m c r
  | 4 => En3 m c r
  | 5 => En4 m c r
  | 6 => En5 m c r
  | 7 => En6 m c r
  | _ => En0 m c r

theorem update_tc (c : Dev nD) (W : Valuation τ sig (Elt F)) (E : (b : Ref sig .tc) → Buf (Elt F) ((c : Thread nD τ).loc b))
    (h : ∀ b : Ref sig .tc, W b = E b) (r : Ref sig .tc) (x : Buf (Elt F) ((c : Thread nD τ).loc r)) (b : Ref sig .tc) :
    Function.update W (Proc.devRef .tc r) x (Proc.devRef .tc b) = Function.update E r x b := by
  by_cases e : b = r
  · subst e; rw [Function.update_self, Function.update_self]
  · rw [Function.update_of_ne e, Function.update_of_ne (StableHlo.devRef_ne_of_ne e)]; exact h b

theorem V2_eq (c : Dev nD) (b : Ref sig .tc) : Gen.V2 m (outs m) c b = En1 m c b := by
  show Function.update (Gen.V1 m c) (Proc.devRef .tc main_v3) (En1 m c main_v3) (Proc.devRef .tc b) = _
  rw [show En1 m c main_v3 = res0 m c from Function.update_self ..]
  exact update_tc c _ (En0 m c) (fun _ => rfl) main_v3 _ b
theorem V3_eq (c : Dev nD) (b : Ref sig .tc) : Gen.V3 m (outs m) c b = En2 m c b := by
  show Function.update (Gen.V2 m (outs m) c) (Proc.devRef .tc main_v4) (En2 m c main_v4) (Proc.devRef .tc b) = _
  rw [show En2 m c main_v4 = res1 m c from Function.update_self ..]
  exact update_tc c _ (En1 m c) (V2_eq m c) main_v4 _ b
theorem V4_eq (c : Dev nD) (b : Ref sig .tc) : Gen.V4 m (outs m) c b = En3 m c b := by
  show Function.update (Gen.V3 m (outs m) c) (Proc.devRef .tc main_v5) (En3 m c main_v5) (Proc.devRef .tc b) = _
  rw [show En3 m c main_v5 = res2 m c from Function.update_self ..]
  exact update_tc c _ (En2 m c) (V3_eq m c) main_v5 _ b
theorem V5_eq (c : Dev nD) (b : Ref sig .tc) : Gen.V5 m (outs m) c b = En4 m c b := by
  show Function.update (Gen.V4 m (outs m) c) (Proc.devRef .tc main_v6) (En4 m c main_v6) (Proc.devRef .tc b) = _
  rw [show En4 m c main_v6 = res3 m c from Function.update_self ..]
  exact update_tc c _ (En3 m c) (V4_eq m c) main_v6 _ b
theorem V6_eq (c : Dev nD) (b : Ref sig .tc) : Gen.V6 m (outs m) c b = En5 m c b := by
  show Function.update (Gen.V5 m (outs m) c) (Proc.devRef .tc main_v7) (En5 m c main_v7) (Proc.devRef .tc b) = _
  rw [show En5 m c main_v7 = res4 m c from Function.update_self ..]
  exact update_tc c _ (En4 m c) (V5_eq m c) main_v7 _ b
theorem V7_eq (c : Dev nD) (b : Ref sig .tc) : Gen.V7 m (outs m) c b = En6 m c b := by
  show Function.update (Gen.V6 m (outs m) c) (Proc.devRef .tc main_v8) (En6 m c main_v8) (Proc.devRef .tc b) = _
  rw [show En6 m c main_v8 = res5 m c from Function.update_self ..]
  exact update_tc c _ (En5 m c) (V6_eq m c) main_v8 _ b

theorem En1_main_v3 (c : Dev nD) : En1 m c main_v3 = res0 m c := Function.update_self ..

theorem En2_main_v4 (c : Dev nD) : En2 m c main_v4 = res1 m c := Function.update_self ..

theorem En3_main_v5 (c : Dev nD) : En3 m c main_v5 = res2 m c := Function.update_self ..

theorem En4_main_v6 (c : Dev nD) : En4 m c main_v6 = res3 m c := Function.update_self ..

theorem En5_main_v7 (c : Dev nD) : En5 m c main_v7 = res4 m c := Function.update_self ..

theorem En6_main_v8 (c : Dev nD) : En6 m c main_v8 = res5 m c := Function.update_self ..

end Cert.Kernel.GW

end
-- ==== Proof.K.Run.lean ====
/-
  The run of @main: four host operations, then six kernel regions in a line. Each region's proof data become a segment
  of the run, entered from the contents the earlier items left; the frame follows.
-/
import proofs.«113573_j27281632264453_1_alg».proof.Proof.Gen.Kernel.Regions
import proofs.«113573_j27281632264453_1_alg».proof.Proof.K.Dense0
import proofs.«113573_j27281632264453_1_alg».proof.Proof.K.Spectral1
import proofs.«113573_j27281632264453_1_alg».proof.Proof.K.Spectral2
import proofs.«113573_j27281632264453_1_alg».proof.Proof.K.Dense3
import proofs.«113573_j27281632264453_1_alg».proof.Proof.K.Spectral4
import proofs.«113573_j27281632264453_1_alg».proof.Proof.K.Spectral5
import proofs.«113573_j27281632264453_1_alg».proof.Proof.K.Contents

set_option maxRecDepth 16384

noncomputable section

namespace Cert.Kernel.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 6) → (c : Dev nD) → Dat τ (Elt F) Unit ℕ (UR sig nD τ) ℕ (cfgs p) c
  | ⟨0, _⟩ => fun c => dat0 (En0 m) c
  | ⟨1, _⟩ => fun c => dat1 (En1 m) c
  | ⟨2, _⟩ => fun c => dat2 (En2 m) c
  | ⟨3, _⟩ => fun c => dat3 (En3 m) c
  | ⟨4, _⟩ => fun c => dat4 (En4 m) c
  | ⟨5, _⟩ => fun c => dat5 (En5 m) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem held_eq (c : Dev nD) (W : Valuation τ sig (Elt F)) (E : (b : Ref sig .tc) → Buf (Elt F) ((c : Thread nD τ).loc b))
    (h : ∀ b : Ref sig .tc, W b = E b) :
    (StableHlo.held (c : Thread nD τ) (Pipeline.ucRefs τ sig) W : sProp 𝕄) = unscopedBufs c E := by
  rw [← Pipeline.unscopedBufs_held c W]; congr 1; exact funext h

set_option backward.isDefEq.respectTransparency.types false in
/-- A region as a segment of the run: entered from the contents the earlier items left, and left at those contents with its
    output array replaced. -/
def regionSeg (p : Fin 6) (lf : Pipeline.LaunchFacts (nD := nD) (τ := τ) cfgs p)
    (VIn VOut : Dev nD → Valuation τ sig (Elt F)) (EIn EOut : Conts (F := F))
    (hVIn : ∀ c (b : Ref sig .tc), VIn c b = EIn c b) (hVOut : ∀ c (b : Ref sig .tc), VOut c b = EOut c b)
    (hA : ∀ c w, (pdats m p c).A w = EIn c (Pipeline.arrRef (cfgs p).spec w))
    (hq : ∀ c w, (pdats m p c).q w = fullShare)
    (howed : ∀ c t, (pdats m p c).owed t = 0)
    (hrec : ∀ c, (pdats m p c).recorded 0 = Set.univ)
    (hbody : ∀ c, BodyObligation (pdats m p c) (defs₀ (F := F)) Variants.none () Set.univ)
    (hin : ∀ c, (Pipeline.ΦA (cfgs p).spec c : sProp 𝕄) ⊢ (pdats m p c).Φ 0)
    (hout : ∀ c, (pdats m p c).Φ (Fin.last (cfgs p).N) ⊢ (Pipeline.ΦA (cfgs p).spec c : sProp 𝕄))
    (hexit : ∀ c w, (pdats m p c).arrAt w (cfgs p).N = EOut c (Pipeline.arrRef (cfgs p).spec w))
    (hrest : ∀ c b, b ∉ Finset.univ.image (Pipeline.arrRef (cfgs p).spec) → EOut c b = EIn c b) :
    Pipeline.RegionSeg (pcfgs (F := F)) Gen.adm (pdats m) () defs₀ Variants.none L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (VIn c) ∗ R c)
  post c := iprop(StableHlo.held (c : Thread nD τ) (Pipeline.ucRefs τ sig) (VOut c) ∗ R c)
  X c := iprop(∃ r, prngReg c r)
  Y c := iprop(∃ r, prngReg c r)
  Z c := Pipeline.unscopedRest (Ix := Unit) (Name := ℕ) (U := UR sig nD τ) (Lvl := ℕ) (cfgs p).spec c (EIn c)
  hentry c := by
    rw [Pipeline.ownSems0_none, held_eq c (VIn c) (EIn c) (hVIn c)]
    have hsplit := Pipeline.arrays_of_unscopedBufs (p := p) (pcfgs (F := F)) Gen.adm (pdats m) lf.win lf.arr_whole c
      ((pdats m p c).share_full (hq c)) (EIn c) (hA c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr
      · ipureintro; exact fun x _ => Or.inl ((hrec c).symm ▸ Set.mem_univ x)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    rw [held_eq c (VOut c) (EOut c) (hVOut c)]
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (EIn c) (EOut c) ((pdats m p c).arrAt · (cfgs p).N) (hexit c) (hrest c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

theorem exit0 (c : Dev nD) : ∀ w : Fin 3, (dat0 (En0 m) c).arrAt w cfg0.N = En1 m c (Pipeline.arrRef spec0 w)
  | 0 => ((dat0 (En0 m) c).arrAt_in 0 rfl _).trans <| (A_eq0 (En0 m) c 0).trans (Function.update_of_ne (by decide) ..).symm
  | 1 => ((dat0 (En0 m) c).arrAt_in 1 rfl _).trans <| (A_eq0 (En0 m) c 1).trans (Function.update_of_ne (by decide) ..).symm
  | 2 => (En1_main_v3 m c).symm
  | ⟨_ + 3, h⟩ => absurd h (Nat.not_lt.2 (Nat.le_add_left _ _))

def reg0 : Pipeline.RegionSeg (pcfgs (F := F)) Gen.adm (pdats m) () defs₀ Variants.none L lv 0 :=
  regionSeg m 0 launch0 (Gen.V1 m) (Gen.V2 m (outs m)) (En0 m) (En1 m) (fun _ _ => rfl) (V2_eq m)
    (A_eq0 (En0 m)) (fun _ _ => rfl) (fun _ _ => rfl) (fun _ => rfl)
    (body_obligation0 (En0 m)) (hin0 (En0 m)) (hout0 (En0 m)) (exit0 m)
    fun c b hb => Function.update_of_ne (fun e => hb (Finset.mem_image.mpr ⟨2, Finset.mem_univ _, e.symm⟩)) ..

theorem exit1 (c : Dev nD) : ∀ w : Fin 4, (dat1 (En1 m) c).arrAt w cfg1.N = En2 m c (Pipeline.arrRef spec1 w)
  | 0 => ((dat1 (En1 m) c).arrAt_in 0 rfl _).trans <| (A_eq1 (En1 m) c 0).trans (Function.update_of_ne (by decide) ..).symm
  | 1 => ((dat1 (En1 m) c).arrAt_in 1 rfl _).trans <| (A_eq1 (En1 m) c 1).trans (Function.update_of_ne (by decide) ..).symm
  | 2 => ((dat1 (En1 m) c).arrAt_in 2 rfl _).trans <| (A_eq1 (En1 m) c 2).trans (Function.update_of_ne (by decide) ..).symm
  | 3 => (En2_main_v4 m c).symm
  | ⟨_ + 4, h⟩ => absurd h (Nat.not_lt.2 (Nat.le_add_left _ _))

def reg1 : Pipeline.RegionSeg (pcfgs (F := F)) Gen.adm (pdats m) () defs₀ Variants.none L lv 1 :=
  regionSeg m 1 launch1 (Gen.V2 m (outs m)) (Gen.V3 m (outs m)) (En1 m) (En2 m) (V2_eq m) (V3_eq m)
    (A_eq1 (En1 m)) (fun _ _ => rfl) (fun _ _ => rfl) (fun _ => rfl)
    (body_obligation1 (En1 m)) (hin1 (En1 m)) (hout1 (En1 m)) (exit1 m)
    fun c b hb => Function.update_of_ne (fun e => hb (Finset.mem_image.mpr ⟨3, Finset.mem_univ _, e.symm⟩)) ..

theorem exit2 (c : Dev nD) : ∀ w : Fin 4, (dat2 (En2 m) c).arrAt w cfg2.N = En3 m c (Pipeline.arrRef spec2 w)
  | 0 => ((dat2 (En2 m) c).arrAt_in 0 rfl _).trans <| (A_eq2 (En2 m) c 0).trans (Function.update_of_ne (by decide) ..).symm
  | 1 => ((dat2 (En2 m) c).arrAt_in 1 rfl _).trans <| (A_eq2 (En2 m) c 1).trans (Function.update_of_ne (by decide) ..).symm
  | 2 => ((dat2 (En2 m) c).arrAt_in 2 rfl _).trans <| (A_eq2 (En2 m) c 2).trans (Function.update_of_ne (by decide) ..).symm
  | 3 => (En3_main_v5 m c).symm
  | ⟨_ + 4, h⟩ => absurd h (Nat.not_lt.2 (Nat.le_add_left _ _))

def reg2 : Pipeline.RegionSeg (pcfgs (F := F)) Gen.adm (pdats m) () defs₀ Variants.none L lv 2 :=
  regionSeg m 2 launch2 (Gen.V3 m (outs m)) (Gen.V4 m (outs m)) (En2 m) (En3 m) (V3_eq m) (V4_eq m)
    (A_eq2 (En2 m)) (fun _ _ => rfl) (fun _ _ => rfl) (fun _ => rfl)
    (body_obligation2 (En2 m)) (hin2 (En2 m)) (hout2 (En2 m)) (exit2 m)
    fun c b hb => Function.update_of_ne (fun e => hb (Finset.mem_image.mpr ⟨3, Finset.mem_univ _, e.symm⟩)) ..

theorem exit3 (c : Dev nD) : ∀ w : Fin 3, (dat3 (En3 m) c).arrAt w cfg3.N = En4 m c (Pipeline.arrRef spec3 w)
  | 0 => ((dat3 (En3 m) c).arrAt_in 0 rfl _).trans <| (A_eq3 (En3 m) c 0).trans (Function.update_of_ne (by decide) ..).symm
  | 1 => ((dat3 (En3 m) c).arrAt_in 1 rfl _).trans <| (A_eq3 (En3 m) c 1).trans (Function.update_of_ne (by decide) ..).symm
  | 2 => (En4_main_v6 m c).symm
  | ⟨_ + 3, h⟩ => absurd h (Nat.not_lt.2 (Nat.le_add_left _ _))

def reg3 : Pipeline.RegionSeg (pcfgs (F := F)) Gen.adm (pdats m) () defs₀ Variants.none L lv 3 :=
  regionSeg m 3 launch3 (Gen.V4 m (outs m)) (Gen.V5 m (outs m)) (En3 m) (En4 m) (V4_eq m) (V5_eq m)
    (A_eq3 (En3 m)) (fun _ _ => rfl) (fun _ _ => rfl) (fun _ => rfl)
    (body_obligation3 (En3 m)) (hin3 (En3 m)) (hout3 (En3 m)) (exit3 m)
    fun c b hb => Function.update_of_ne (fun e => hb (Finset.mem_image.mpr ⟨2, Finset.mem_univ _, e.symm⟩)) ..

theorem exit4 (c : Dev nD) : ∀ w : Fin 4, (dat4 (En4 m) c).arrAt w cfg4.N = En5 m c (Pipeline.arrRef spec4 w)
  | 0 => ((dat4 (En4 m) c).arrAt_in 0 rfl _).trans <| (A_eq4 (En4 m) c 0).trans (Function.update_of_ne (by decide) ..).symm
  | 1 => ((dat4 (En4 m) c).arrAt_in 1 rfl _).trans <| (A_eq4 (En4 m) c 1).trans (Function.update_of_ne (by decide) ..).symm
  | 2 => ((dat4 (En4 m) c).arrAt_in 2 rfl _).trans <| (A_eq4 (En4 m) c 2).trans (Function.update_of_ne (by decide) ..).symm
  | 3 => (En5_main_v7 m c).symm
  | ⟨_ + 4, h⟩ => absurd h (Nat.not_lt.2 (Nat.le_add_left _ _))

def reg4 : Pipeline.RegionSeg (pcfgs (F := F)) Gen.adm (pdats m) () defs₀ Variants.none L lv 4 :=
  regionSeg m 4 launch4 (Gen.V5 m (outs m)) (Gen.V6 m (outs m)) (En4 m) (En5 m) (V5_eq m) (V6_eq m)
    (A_eq4 (En4 m)) (fun _ _ => rfl) (fun _ _ => rfl) (fun _ => rfl)
    (body_obligation4 (En4 m)) (hin4 (En4 m)) (hout4 (En4 m)) (exit4 m)
    fun c b hb => Function.update_of_ne (fun e => hb (Finset.mem_image.mpr ⟨3, Finset.mem_univ _, e.symm⟩)) ..

theorem exit5 (c : Dev nD) : ∀ w : Fin 4, (dat5 (En5 m) c).arrAt w cfg5.N = En6 m c (Pipeline.arrRef spec5 w)
  | 0 => ((dat5 (En5 m) c).arrAt_in 0 rfl _).trans <| (A_eq5 (En5 m) c 0).trans (Function.update_of_ne (by decide) ..).symm
  | 1 => ((dat5 (En5 m) c).arrAt_in 1 rfl _).trans <| (A_eq5 (En5 m) c 1).trans (Function.update_of_ne (by decide) ..).symm
  | 2 => ((dat5 (En5 m) c).arrAt_in 2 rfl _).trans <| (A_eq5 (En5 m) c 2).trans (Function.update_of_ne (by decide) ..).symm
  | 3 => (En6_main_v8 m c).symm
  | ⟨_ + 4, h⟩ => absurd h (Nat.not_lt.2 (Nat.le_add_left _ _))

def reg5 : Pipeline.RegionSeg (pcfgs (F := F)) Gen.adm (pdats m) () defs₀ Variants.none L lv 5 :=
  regionSeg m 5 launch5 (Gen.V6 m (outs m)) (Gen.V7 m (outs m)) (En5 m) (En6 m) (V6_eq m) (V7_eq m)
    (A_eq5 (En5 m)) (fun _ _ => rfl) (fun _ _ => rfl) (fun _ => rfl)
    (body_obligation5 (En5 m)) (hin5 (En5 m)) (hout5 (En5 m)) (exit5 m)
    fun c b hb => Function.update_of_ne (fun e => hb (Finset.mem_image.mpr ⟨3, Finset.mem_univ _, e.symm⟩)) ..

abbrev u₀ : UR sig nD τ := initOf (Pipeline.cells cfgs cellOf_inj) (Pipeline.launchToks cfgs cellOf_inj)
theorem launch_ghost : (ownU u₀ : sProp 𝕄)
    ⊢ |={Set.univ}=> iprop(BI.own ((emb₁ : Emb (UR sig nD τ) 𝕄) u₀) ∗ bigSep Finset.univ fun _ : Dev nD => (BI.emp : sProp 𝕄)) := by
  iintro Hu; imodintro
  isplitl [Hu]
  · iapply (show (ownU u₀ : sProp 𝕄) ⊢ BI.own ((emb₁ : Emb (UR sig nD τ) 𝕄) u₀) from .rfl)
    iexact Hu
  iapply (show (BI.emp : sProp 𝕄) ⊢ bigSep Finset.univ (fun _ : Dev nD => (BI.emp : sProp 𝕄)) from by rw [BI.bigSep_emp_const])
  iempintro

theorem owes_of_R (c : Dev nD) : R (F := F) c ⊢ (iprop(∃ W, owes (c : Thread nD τ) (0 : CellTallies nD τ sig Unit) W) : sProp 𝕄) := by
  iintro ⟨-, HO⟩; iexact HO

set_option backward.isDefEq.respectTransparency.types false in

/-- Every weakly fair execution terminates and leaves the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond m (emb₁ : Emb (UR sig nD τ) 𝕄) () Variants.none L lv (fun _ _ => rfl) ρ (outs m) (pdats m)
    (O₀ := 0) (G := fun _ => iprop(emp)) (u₀ := u₀) (hu₀ := launch_ghost) (E := fun _ => R)
    (hE0 := by
      refine Pipeline.initEach L lv fun c => ?_
      iintro ⟨⟨-, HO, -, Hp, -⟩, -⟩
      imodintro
      isplitl [Hp]; · iexists _; iexact Hp
      iexists ∅; iexact HO)
    (hE6 := owes_of_R)
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)

end Cert.Kernel.GW

end
-- ==== Proof.KI.Dense0.lean ====
/-
  The first feature map x·W1 as a region: four row blocks of 2048 rows, each one matrix product into a zero accumulator.
-/
import proofs.«113573_j27281632264453_1_alg».proof.Proof.Gen.KernelIdeal.Launch
import proofs.«113573_j27281632264453_1_alg».proof.Proof.Gen.KernelIdeal.Skeleton
import proofs.«113573_j27281632264453_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113573_j27281632264453_1_alg».proof.Proof.Common

set_option maxRecDepth 16384

noncomputable section

namespace Cert.KernelIdeal.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen Cert.GW

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev outRect0 : Rect S2048x256 := Rect.unit (s := S2048x256) ![0, 0] S2048x256.size inb_S2048x256_S2048x256_0_0

def prodBlock0 (x : Vec F S2048x512 .f32) (wt : Vec F S512x256 .f32) : Vec F S2048x256 .f32 :=
  View.canon [⟨outRect0, k0_pay1 (View.ld x (Rect.unit (s := S2048x512) ![0, 0] S2048x512.size inb_S2048x512_S2048x512_0_0)) (View.ld wt (Rect.unit (s := S512x256) ![0, 0] S512x256.size inb_S512x256_S512x256_0_0))⟩]

theorem prodBlock0_covers (p : Vec F S2048x256 .f32) (y : S2048x256.Idx) :
    ∃ pc ∈ ([⟨outRect0, p⟩] : List (View.Piece (Elt F) S2048x256 .f32)), y ∈ pc.1.set :=
  View.cover_of_tiled [⟨outRect0, p⟩] S2048x256.size (by rfl) y

set_option maxHeartbeats 1000000 in

theorem dense0_runs (c : Dev nD) (E : Set ℕ) (i : grid0.Coords) (arg1 : Memref sig .tc .vmem S2048x512 .f32) (harg1 : arg1.IsWhole)
    (arg2 : Memref sig .tc .vmem S512x256 .f32) (harg2 : arg2.IsWhole) (arg3 : Memref sig .tc .vmem S2048x256 .f32) (harg3 : arg3.IsWhole)
    (x : Vec F S2048x512 .f32) (wt : Vec F S512x256 .f32) (K : PUnit → sProp 𝕄) :
    iprop(owns (c : Thread nD τ) arg1 fullShare x ∗ owns (c : Thread nD τ) arg2 fullShare wt ∗ (∃ d, owns (c : Thread nD τ) arg3 fullShare d)
        ∗ (iprop(owns (c : Thread nD τ) arg1 fullShare x ∗ owns (c : Thread nD τ) arg2 fullShare wt
            ∗ owns (c : Thread nD τ) arg3 fullShare (prodBlock0 x wt)) -∗ K ⟨⟩))
      ⊢ wp frame (wpE (defs₀ (F := F)) Variants.none c none) E (cc0__dense_kernel i arg1 harg1 arg2 harg2 arg3 harg3) K := by
  simp only [cc0__dense_kernel_eq_skeleton]; unfold cc0__dense_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]; · iapply (owns_of _ arg1 _ rfl); iexact H1
  isplitl [H2]; · iapply (owns_of _ arg2 _ rfl); iexact H2
  iexists _; isplitr
  swap; · iexact H3
  ipureintro
  exact View.read_writes_eq_canon _ _ _ (prodBlock0_covers _)

def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => prodBlock0 (blockAt0 V c 0 t) (blockAt0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_rows (c : Dev nD) (t : Fin cfg0.N) : (dat0 V c).after 0 t = blockAt0 V c 0 t := by dsimp only [dat0]
theorem after0_weights (c : Dev nD) (t : Fin cfg0.N) : (dat0 V c).after 1 t = blockAt0 V c 1 t := by dsimp only [dat0]
theorem after0_out (c : Dev nD) (t : Fin cfg0.N) :
    (dat0 V c).after 2 t = prodBlock0 (blockAt0 V c 0 t) (blockAt0 V c 1 t) := by dsimp only [dat0]

theorem before0_rows (c : Dev nD) (t : Fin cfg0.N) (d) : (dat0 V c).before 0 t d = blockAt0 V c 0 t :=
  ((dat0 V c).before_in_eq_fetched 0 rfl (fun _ => rfl) (fun _ _ _ => rfl)
    (fun t => by rw [after0_rows]; unfold Dat.blockOf blockAt0; rw [A_eq0]; try rfl) t d).trans
    (by unfold Dat.fetched Dat.blockOf blockAt0; rw [A_eq0]; try rfl)
theorem before0_weights (c : Dev nD) (t : Fin cfg0.N) (d) : (dat0 V c).before 1 t d = blockAt0 V c 1 t :=
  ((dat0 V c).before_in_eq_fetched 1 rfl (fun _ => rfl) (fun _ _ _ => rfl)
    (fun t => by rw [after0_weights]; unfold Dat.blockOf blockAt0; rw [A_eq0]; try rfl) t d).trans
    (by unfold Dat.fetched Dat.blockOf blockAt0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem body0_at (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_rows, before0_weights]
  rw [show (dat0 V c).Φ t.succ = (dat0 V c).Φ t.castSucc from rfl,
    show (dat0 V c).owesAt () t.succ = (dat0 V c).owesAt () t.castSucc from rfl,
    after0_rows, after0_weights, after0_out]
  iintro ⟨HΦ, Ho, ⟨%d0, H0⟩, ⟨%d1, H1⟩, ⟨%d2, H2⟩⟩
  iapply (dense0_runs c Set.univ _ _ _ _ _ _ _ (blockAt0 V c 0 t) (blockAt0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact body0_at V c t

theorem hin0 (c : Dev nD) : (Pipeline.ΦA spec0 c : sProp 𝕄) ⊢ (dat0 V c).Φ 0 := by
  dsimp only [dat0]; exact BIBase.Entails.rfl
theorem hout0 (c : Dev nD) : (dat0 V c).Φ (Fin.last cfg0.N) ⊢ (Pipeline.ΦA spec0 c : sProp 𝕄) := by
  dsimp only [dat0]; exact BIBase.Entails.rfl

end Cert.KernelIdeal.GW

end
-- ==== Proof.KI.SpectralBody1.lean ====
/-
  One grid point of a blocked product with a column scale: the accumulator is zeroed where the contraction starts,
  the block product is added, and the accumulator is copied out where the contraction ends.
-/
import proofs.«113573_j27281632264453_1_alg».proof.Proof.Gen.KernelIdeal.Launch
import proofs.«113573_j27281632264453_1_alg».proof.Proof.Gen.KernelIdeal.Skeleton
import proofs.«113573_j27281632264453_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«113573_j27281632264453_1_alg».proof.Proof.Common

set_option maxRecDepth 16384

noncomputable section

namespace Cert.KernelIdeal.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.GW

variable {F : FTy → Type} [FloatOps F]

local notation "𝕄" => MT nD τ sig Unit (Elt F) ℕ (UR sig nD τ) ℕ

/-- The contraction coordinate is the first: the accumulator is reset. -/
abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

/-- The contraction coordinate is the last: the accumulator is copied out. -/
abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

def flushVal1 (s : Vec F S1024x256 .f32) : Vec F S1024x256 .f32 := s

/-- The accumulator after one point: the block product added to zero at a reset, to what it held otherwise. -/
def acc1 (i : grid1.Coords) (x0 : Vec F S1024x1024 .f32) (x1 : Vec F S1024x256 .f32) (x2 : Vec F S1x1024 .f32)
    (xs : Vec F S1024x256 .f32) : Vec F S1024x256 .f32 :=
  k1_pay2 x0 x2 x1 (if cond1_0 i then k1_pay1 else xs)

/-- The output block's buffer after one point: touched only where the accumulator is copied out. -/
def out1 (i : grid1.Coords) (x0 : Vec F S1024x1024 .f32) (x1 : Vec F S1024x256 .f32) (x2 : Vec F S1x1024 .f32)
    (d3 xs : Vec F S1024x256 .f32) : Vec F S1024x256 .f32 :=
  if cond1_1 i then flushVal1 (acc1 i x0 x1 x2 xs) else d3

section Run

variable (c : Dev nD) (i : grid1.Coords)
  (arg2 : Memref sig .tc .vmem S1024x1024 .f32) (harg2 : arg2.IsWhole) (arg3 : Memref sig .tc .vmem S1024x256 .f32) (harg3 : arg3.IsWhole)
  (arg4 : Memref sig .tc .vmem S1x1024 .f32) (harg4 : arg4.IsWhole) (arg5 : Memref sig .tc .vmem S1024x256 .f32) (harg5 : arg5.IsWhole)
  (arg6 : Memref sig .tc .vmem S1024x256 .f32) (harg6 : arg6.IsWhole)
  (x0 : Vec F S1024x1024 .f32) (x1 : Vec F S1024x256 .f32) (x2 : Vec F S1x1024 .f32) (d3 xs : Vec F S1024x256 .f32)

abbrev runPre1 : sProp 𝕄 :=
  iprop(owns (c : Thread nD τ) arg2 fullShare x0 ∗ owns (c : Thread nD τ) arg3 fullShare x1 ∗ owns (c : Thread nD τ) arg4 fullShare x2
    ∗ owns (c : Thread nD τ) arg5 fullShare d3 ∗ owns (c : Thread nD τ) arg6 fullShare xs)

abbrev runPost1 (o a : Vec F S1024x256 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare o ∗ owns (c : Thread nD τ) arg6 fullShare a)

set_option maxHeartbeats 1000000 in

theorem run1_TT (hc0 : cond1_0 i) (hc1 : cond1_1 i) (E : Set ℕ) (K : PUnit → sProp 𝕄) :
    iprop(runPre1 c arg2 arg3 arg4 arg5 arg6 x0 x1 x2 d3 xs
        ∗ (runPost1 c arg2 arg3 arg4 arg5 arg6 x0 x1 x2 (flushVal1 (k1_pay2 x0 x2 x1 k1_pay1)) (k1_pay2 x0 x2 x1 k1_pay1) -∗ K ⟨⟩))
      ⊢ wp frame (wpE (defs₀ (F := F)) Variants.none c none) E (cc1__big_matmul_kernel i arg2 harg2 arg3 harg3 arg4 harg4 arg5 harg5 arg6 harg6) K := by
  simp only [cc1__big_matmul_kernel_eq_skeleton]; unfold cc1__big_matmul_kernel_skel
  unfold runPre1 runPost1 owns
  iintro ⟨⟨⟨%f0, %hf0, H0⟩, ⟨%f1, %hf1, H1⟩, ⟨%f2, %hf2, H2⟩, ⟨%f3, %hf3, H3⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]; · iapply (owns_of _ arg2 _ hf0); iexact H0
  isplitl [H1]; · iapply (owns_of _ arg3 _ hf1); iexact H1
  isplitl [H2]; · iapply (owns_of _ arg4 _ hf2); iexact H2
  isplitl [H3]
  · iexists _; isplitr
    swap; · iexact H3
    ipureintro
    sl_unfold_run_names
    rw [read_writes_cons_unit_zero _ _ zoff]
    unfold flushVal1
    simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]
  iexists _; isplitr
  swap; · iexact HS
  ipureintro
  sl_unfold_run_names
  rw [read_writes_cons_unit_zero _ _ zoff]
  simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]

set_option maxHeartbeats 1000000 in

theorem run1_TF (hc0 : cond1_0 i) (hc1 : ¬cond1_1 i) (E : Set ℕ) (K : PUnit → sProp 𝕄) :
    iprop(runPre1 c arg2 arg3 arg4 arg5 arg6 x0 x1 x2 d3 xs
        ∗ (runPost1 c arg2 arg3 arg4 arg5 arg6 x0 x1 x2 (d3) (k1_pay2 x0 x2 x1 k1_pay1) -∗ K ⟨⟩))
      ⊢ wp frame (wpE (defs₀ (F := F)) Variants.none c none) E (cc1__big_matmul_kernel i arg2 harg2 arg3 harg3 arg4 harg4 arg5 harg5 arg6 harg6) K := by
  simp only [cc1__big_matmul_kernel_eq_skeleton]; unfold cc1__big_matmul_kernel_skel
  unfold runPre1 runPost1 owns
  iintro ⟨⟨⟨%f0, %hf0, H0⟩, ⟨%f1, %hf1, H1⟩, ⟨%f2, %hf2, H2⟩, ⟨%f3, %hf3, H3⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]; · iapply (owns_of _ arg2 _ hf0); iexact H0
  isplitl [H1]; · iapply (owns_of _ arg3 _ hf1); iexact H1
  isplitl [H2]; · iapply (owns_of _ arg4 _ hf2); iexact H2
  isplitl [H3]; · iapply (owns_of _ arg5 _ hf3); iexact H3
  iexists _; isplitr
  swap; · iexact HS
  ipureintro
  sl_unfold_run_names
  rw [read_writes_cons_unit_zero _ _ zoff]
  simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]

set_option maxHeartbeats 1000000 in

theorem run1_FT (hc0 : ¬cond1_0 i) (hc1 : cond1_1 i) (E : Set ℕ) (K : PUnit → sProp 𝕄) :
    iprop(runPre1 c arg2 arg3 arg4 arg5 arg6 x0 x1 x2 d3 xs
        ∗ (runPost1 c arg2 arg3 arg4 arg5 arg6 x0 x1 x2 (flushVal1 (k1_pay2 x0 x2 x1 xs)) (k1_pay2 x0 x2 x1 xs) -∗ K ⟨⟩))
      ⊢ wp frame (wpE (defs₀ (F := F)) Variants.none c none) E (cc1__big_matmul_kernel i arg2 harg2 arg3 harg3 arg4 harg4 arg5 harg5 arg6 harg6) K := by
  simp only [cc1__big_matmul_kernel_eq_skeleton]; unfold cc1__big_matmul_kernel_skel
  unfold runPre1 runPost1 owns
  iintro ⟨⟨⟨%f0, %hf0, H0⟩, ⟨%f1, %hf1, H1⟩, ⟨%f2, %hf2, H2⟩, ⟨%f3, %hf3, H3⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]; · iapply (owns_of _ arg2 _ hf0); iexact H0
  isplitl [H1]; · iapply (owns_of _ arg3 _ hf1); iexact H1
  isplitl [H2]; · iapply (owns_of _ arg4 _ hf2); iexact H2
  isplitl [H3]
  · iexists _; isplitr
    swap; · iexact H3
    ipureintro
    sl_unfold_run_names
    rw [read_writes_cons_unit_zero _ _ zoff]
    unfold flushVal1
    simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]
  iexists _; isplitr
  swap; · iexact HS
  ipureintro
  sl_unfold_run_names
  rw [read_writes_cons_unit_zero _ _ zoff]
  simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]

set_option maxHeartbeats 1000000 in

theorem run1_FF (hc0 : ¬cond1_0 i) (hc1 : ¬cond1_1 i) (E : Set ℕ) (K : PUnit → sProp 𝕄) :
    iprop(runPre1 c arg2 arg3 arg4 arg5 arg6 x0 x1 x2 d3 xs
        ∗ (runPost1 c arg2 arg3 arg4 arg5 arg6 x0 x1 x2 (d3) (k1_pay2 x0 x2 x1 xs) -∗ K ⟨⟩))
      ⊢ wp frame (wpE (defs₀ (F := F)) Variants.none c none) E (cc1__big_matmul_kernel i arg2 harg2 arg3 harg3 arg4 harg4 arg5 harg5 arg6 harg6) K := by
  simp only [cc1__big_matmul_kernel_eq_skeleton]; unfold cc1__big_matmul_kernel_skel
  unfold runPre1 runPost1 owns
  iintro ⟨⟨⟨%f0, %hf0, H0⟩, ⟨%f1, %hf1, H1⟩, ⟨%f2, %hf2, H2⟩, ⟨%f3, %hf3, H3⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]; · iapply (owns_of _ arg2 _ hf0); iexact H0
  isplitl [H1]; · iapply (owns_of _ arg3 _ hf1); iexact H1
  isplitl [H2]; · iapply (owns_of _ arg4 _ hf2); iexact H2
  isplitl [H3]; · iapply (owns_of _ arg5 _ hf3); iexact H3
  iexists _; isplitr
  swap; · iexact HS
  ipureintro
  sl_unfold_run_names
  rw [read_writes_cons_unit_zero _ _ zoff]
  simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]

/-- The four cases are one statement: the accumulator ends at `acc1`, the output's buffer at `out1`. -/
theorem kernelRun1 (E : Set ℕ) (K : PUnit → sProp 𝕄) :
    iprop(runPre1 c arg2 arg3 arg4 arg5 arg6 x0 x1 x2 d3 xs
        ∗ (runPost1 c arg2 arg3 arg4 arg5 arg6 x0 x1 x2 (out1 i x0 x1 x2 d3 xs) (acc1 i x0 x1 x2 xs) -∗ K ⟨⟩))
      ⊢ wp frame (wpE (defs₀ (F := F)) Variants.none c none) E (cc1__big_matmul_kernel i arg2 harg2 arg3 harg3 arg4 harg4 arg5 harg5 arg6 harg6) K := by
  unfold out1 acc1
  by_cases hc0 : cond1_0 i <;> by_cases hc1 : cond1_1 i
  · rw [if_pos hc0, if_pos hc1]; exact run1_TT c i arg2 harg2 arg3 harg3 arg4 harg4 arg5 harg5 arg6 harg6 x0 x1 x2 d3 xs hc0 hc1 E K
  · rw [if_pos hc0, if_neg hc1]; exact run1_TF c i arg2 harg2 arg3 harg3 arg4 harg4 arg5 harg5 arg6 harg6 x0 x1 x2 d3 xs hc0 hc1 E K
  · rw [if_neg hc0, if_pos hc1]; exact run1_FT c i arg2 harg2 arg3 harg3 arg4 harg4 arg5 harg5 arg6 harg6 x0 x1 x2 d3 xs hc0 hc1 E K
  · rw [if_neg hc0, if_neg hc1]; exact run1_FF c i arg2 harg2 arg3 harg3 arg4 harg4 arg5 harg5 arg6 harg6 x0 x1 x2 d3 xs hc0 hc1 E K

end Run

end Cert.KernelIdeal.GW

end
-- ==== Proof.KI.Spectral1.lean ====
/-
  The first layer's inverse transform as a region of the run: an 8×8 grid, the contraction accumulated block by block in a
  scratch array that the region's invariant carries from point to point.
-/
import proofs.«113573_j27281632264453_1_alg».proof.Proof.KI.SpectralBody1

set_option maxRecDepth 16384

noncomputable section

namespace Cert.KernelIdeal.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen Cert.GW

variable {F : FTy → Type} [FloatOps F]

local notation "𝕄" => MT nD τ sig Unit (Elt F) ℕ (UR sig nD τ) ℕ

theorem liveAt1_3 (t : Fin cfg1.N) (h : cond1_1 (grid1.coords t)) : cfg1.idle 3 (grid1.coords t) = false := by
  show (!(k1_cond2 (grid1.coords t) == 1#1)) = false
  rw [show k1_cond2 (grid1.coords t) = 1#1 from h]; rfl

theorem idleAt1_3 (t : Fin cfg1.N) (h : ¬cond1_1 (grid1.coords t)) : cfg1.idle 3 (grid1.coords t) = true := by
  show (!(k1_cond2 (grid1.coords t) == 1#1)) = true
  rw [Bool.not_eq_true', beq_eq_false_iff_ne]; exact h

theorem noFlush1_3 (t : Fin cfg1.N) (h : ¬cond1_1 (grid1.coords t)) : (cfg1.win 3).flush t = false := by
  rw [← Bool.not_eq_true, flush1_3 t, ← hcond1_1 t]; exact h

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the accumulator holds after position `n`: the fold of the body's step from the row's first point. -/
def sAt1 (c : Dev nD) : (n : ℕ) → n < cfg1.N → Vec F S1024x256 .f32
  | 0, hn => k1_pay2 (iblk1 V c 0 ⟨0, hn⟩) (iblk1 V c 2 ⟨0, hn⟩) (iblk1 V c 1 ⟨0, hn⟩) k1_pay1
  | n + 1, hn => k1_pay2 (iblk1 V c 0 ⟨n + 1, hn⟩) (iblk1 V c 2 ⟨n + 1, hn⟩) (iblk1 V c 1 ⟨n + 1, hn⟩)
      (if (n + 1) % 8 = 0 then k1_pay1 else sAt1 c n (Nat.lt_of_succ_lt hn))

theorem sAt1_reset (c : Dev nD) (t : Fin cfg1.N) (h : t.val % 8 = 0) :
    sAt1 V c t.val t.isLt = k1_pay2 (iblk1 V c 0 t) (iblk1 V c 2 t) (iblk1 V c 1 t) k1_pay1 := by
  obtain ⟨n, hn⟩ := t
  cases n with
  | zero => rfl
  | succ n => exact (congrArg (k1_pay2 _ _ _) (if_pos h))

theorem sAt1_step (c : Dev nD) (t : Fin cfg1.N) (h : ¬t.val % 8 = 0) :
    sAt1 V c t.val t.isLt = k1_pay2 (iblk1 V c 0 t) (iblk1 V c 2 t) (iblk1 V c 1 t)
      (sAt1 V c (t.val - 1) (Nat.lt_of_le_of_lt (Nat.sub_le _ _) t.isLt)) := by
  obtain ⟨n, hn⟩ := t
  cases n with
  | zero => exact absurd (Nat.zero_mod _) h
  | succ n => exact (congrArg (k1_pay2 _ _ _) (if_neg h))

theorem acc_eq_sAt1 (c : Dev nD) (t : Fin cfg1.N) (xs : Vec F S1024x256 .f32)
    (hxs : t.val ≠ 0 → xs = sAt1 V c (t.val - 1) (Nat.lt_of_le_of_lt (Nat.sub_le _ _) t.isLt)) :
    acc1 (grid1.coords t) (iblk1 V c 0 t) (iblk1 V c 1 t) (iblk1 V c 2 t) xs = sAt1 V c t.val t.isLt := by
  unfold acc1
  by_cases h : t.val % 8 = 0
  · rw [if_pos ((hcond1_0 t).mpr h), sAt1_reset V c t h]
  · rw [if_neg (fun hc => h ((hcond1_0 t).mp hc)), sAt1_step V c t h, hxs (fun hz => h (by rw [hz]))]

abbrev scM1 : Memref sig .tc .vmem S1024x256 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA; rw [scopedRest1_split]; simp only [scM1, owns_whole]; try rfl

/-- The invariant before position `n`: the accumulator owned at some contents, which from the second position on are
    what the point before left. -/
def PhiS1 (c : Dev nD) (n : ℕ) (hn : n ≤ cfg1.N) : sProp 𝕄 :=
  iprop(∃ xs, ⌜∀ h : n ≠ 0, xs = sAt1 V c (n - 1) (by omega)⌝
    ∗ owns (c : Thread nD τ) scM1 fullShare xs ∗ rest1 c ∗ (∃ r, prngReg c r))

/-- The region's proof data: what the body leaves for each window, and the invariant that carries the accumulator. -/
def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => flushVal1 (sAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = flushVal1 (sAt1 V c t.val t.isLt) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (st1_0 t) fullShare (iblk1 V c 0 t) := by
  unfold Dat.leavesExact; rw [show cfg1.idle 0 (grid1.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (grid1.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (grid1.coords t) = false from rfl, after1_2]

theorem leaves1_3_live (c : Dev nD) (t : Fin cfg1.N) (h : cond1_1 (grid1.coords t)) :
    (dat1 V c).leavesExact 3 t = owns (c : Thread nD τ) (st1_3 t) fullShare (flushVal1 (sAt1 V c t.val t.isLt)) := by
  unfold Dat.leavesExact; rw [liveAt1_3 t h, after1_3]

theorem leaves1_3_idle (c : Dev nD) (t : Fin cfg1.N) (h : ¬cond1_1 (grid1.coords t)) :
    (dat1 V c).leavesExact 3 t = iprop(∃ d, owns (c : Thread nD τ) (st1_3 t) fullShare ((dat1 V c).before 3 t d)) :=
  Dat.leavesExact_idle (dat1 V c) 3 t (idleAt1_3 t h) (noFlush1_3 t h)

set_option maxHeartbeats 1000000 in

/-- The body at any point, from the invariant and the point's blocks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl,
    show (dat1 V c).Φ t.castSucc = PhiS1 V c t.val (Nat.le_of_lt t.isLt) from rfl]
  unfold PhiS1
  rw [leaves1_0, leaves1_1, leaves1_2]
  iintro ⟨⟨%xs, %hxs, HS, HR, Hg⟩, Ho, ⟨%d0, H0⟩, ⟨%d1, H1⟩, ⟨%d2, H2⟩, ⟨%d3, H3⟩⟩
  iapply (kernelRun1 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3))
    scM1 (Memref.isWhole_whole _) (iblk1 V c 0 t) (iblk1 V c 1 t) (iblk1 V c 2 t) ((dat1 V c).before 3 t d3) xs Set.univ _)
  rw [acc_eq_sAt1 V c t xs hxs]
  isplitl [H0 H1 H2 H3 HS]
  · isplitl [H0]; · iexact H0
    isplitl [H1]; · iexact H1
    isplitl [H2]; · iexact H2
    isplitl [H3]; · iexact H3
    iexact HS
  iintro ⟨H0, H1, H2, H3, HS⟩
  isplitl [HS HR Hg]
  · iexists (sAt1 V c t.val t.isLt); isplitr; · ipureintro; exact fun _ => rfl
    isplitl [HS]; · iexact HS
    isplitl [HR]; · iexact HR
    iexact Hg
  isplitl [Ho]; · iexact Ho
  isplitl [H0]; · iexact H0
  isplitl [H1]; · iexact H1
  isplitl [H2]; · iexact H2
  unfold out1
  rw [acc_eq_sAt1 V c t xs hxs]
  by_cases h7 : cond1_1 (grid1.coords t)
  · rw [if_pos h7, leaves1_3_live V c t h7]; iexact H3
  · rw [if_neg h7, leaves1_3_idle V c t h7]; iexists d3; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point: nothing is said of the accumulator there. -/
theorem hin1 (c : Dev nD) : (Pipeline.ΦA spec1 c : sProp 𝕄) ⊢ (dat1 V c).Φ 0 := by
  rw [PhiA1_eq, show (dat1 V c).Φ 0 = PhiS1 V c 0 (Nat.zero_le _) from rfl]
  unfold PhiS1
  iintro ⟨⟨⟨%d, HS⟩, HR⟩, Hg⟩
  iexists d; isplitr; · ipureintro; exact fun h => absurd rfl h
  isplitl [HS]; · iexact HS
  isplitl [HR]; · iexact HR
  iexact Hg

/-- After the last point the accumulator's contents are forgotten again. -/
theorem hout1 (c : Dev nD) : (dat1 V c).Φ (Fin.last cfg1.N) ⊢ (Pipeline.ΦA spec1 c : sProp 𝕄) := by
  rw [PhiA1_eq, show (dat1 V c).Φ (Fin.last cfg1.N) = PhiS1 V c cfg1.N (Nat.le_refl _) from rfl]
  unfold PhiS1
  iintro ⟨%xs, %hxs, HS, HR, Hg⟩
  isplitl [HS HR]
  · isplitl [HS]
    · iexists _; iexact HS
    iexact HR
  iexact Hg

end Cert.KernelIdeal.GW

end
-- ==== Proof.KI.SpectralBody2.lean ====
/-
  One grid point of a blocked product with a column scale: the accumulator is zeroed where the contraction starts,
  the block product is added, and the accumulator's positive part is copied out where the contraction ends.
-/
import proofs.«113573_j27281632264453_1_alg».proof.Proof.Gen.KernelIdeal.Launch
import proofs.«113573_j27281632264453_1_alg».proof.Proof.Gen.KernelIdeal.Skeleton
import proofs.«113573_j27281632264453_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«113573_j27281632264453_1_alg».proof.Proof.Common

set_option maxRecDepth 16384

noncomputable section

namespace Cert.KernelIdeal.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.GW

variable {F : FTy → Type} [FloatOps F]

local notation "𝕄" => MT nD τ sig Unit (Elt F) ℕ (UR sig nD τ) ℕ

/-- The contraction coordinate is the first: the accumulator is reset. -/
abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 8 = 0 :=
  (by decide +kernel : ∀ t : Fin grid2.N, cond2_0 (grid2.coords t) ↔ t.val % 8 = 0)

/-- The contraction coordinate is the last: the accumulator is copied out. -/
abbrev cond2_1 (i : grid2.Coords) : Prop := k2_cond2 i = 1#1

theorem hcond2_1 : ∀ t : Fin cfg2.N, cond2_1 (grid2.coords t) ↔ t.val % 8 = 7 :=
  (by decide +kernel : ∀ t : Fin grid2.N, cond2_1 (grid2.coords t) ↔ t.val % 8 = 7)

def flushVal2 (s : Vec F S1024x256 .f32) : Vec F S1024x256 .f32 := k2_pay3 s

/-- The accumulator after one point: the block product added to zero at a reset, to what it held otherwise. -/
def acc2 (i : grid2.Coords) (x0 : Vec F S1024x1024 .f32) (x1 : Vec F S1024x256 .f32) (x2 : Vec F S1x1024 .f32)
    (xs : Vec F S1024x256 .f32) : Vec F S1024x256 .f32 :=
  k2_pay2 x0 x2 x1 (if cond2_0 i then k2_pay1 else xs)

/-- The output block's buffer after one point: touched only where the accumulator is copied out. -/
def out2 (i : grid2.Coords) (x0 : Vec F S1024x1024 .f32) (x1 : Vec F S1024x256 .f32) (x2 : Vec F S1x1024 .f32)
    (d3 xs : Vec F S1024x256 .f32) : Vec F S1024x256 .f32 :=
  if cond2_1 i then flushVal2 (acc2 i x0 x1 x2 xs) else d3

section Run

variable (c : Dev nD) (i : grid2.Coords)
  (arg2 : Memref sig .tc .vmem S1024x1024 .f32) (harg2 : arg2.IsWhole) (arg3 : Memref sig .tc .vmem S1024x256 .f32) (harg3 : arg3.IsWhole)
  (arg4 : Memref sig .tc .vmem S1x1024 .f32) (harg4 : arg4.IsWhole) (arg5 : Memref sig .tc .vmem S1024x256 .f32) (harg5 : arg5.IsWhole)
  (arg6 : Memref sig .tc .vmem S1024x256 .f32) (harg6 : arg6.IsWhole)
  (x0 : Vec F S1024x1024 .f32) (x1 : Vec F S1024x256 .f32) (x2 : Vec F S1x1024 .f32) (d3 xs : Vec F S1024x256 .f32)

abbrev runPre2 : sProp 𝕄 :=
  iprop(owns (c : Thread nD τ) arg2 fullShare x0 ∗ owns (c : Thread nD τ) arg3 fullShare x1 ∗ owns (c : Thread nD τ) arg4 fullShare x2
    ∗ owns (c : Thread nD τ) arg5 fullShare d3 ∗ owns (c : Thread nD τ) arg6 fullShare xs)

abbrev runPost2 (o a : Vec F S1024x256 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare o ∗ owns (c : Thread nD τ) arg6 fullShare a)

set_option maxHeartbeats 1000000 in

theorem run2_TT (hc0 : cond2_0 i) (hc1 : cond2_1 i) (E : Set ℕ) (K : PUnit → sProp 𝕄) :
    iprop(runPre2 c arg2 arg3 arg4 arg5 arg6 x0 x1 x2 d3 xs
        ∗ (runPost2 c arg2 arg3 arg4 arg5 arg6 x0 x1 x2 (flushVal2 (k2_pay2 x0 x2 x1 k2_pay1)) (k2_pay2 x0 x2 x1 k2_pay1) -∗ K ⟨⟩))
      ⊢ wp frame (wpE (defs₀ (F := F)) Variants.none c none) E (cc2__big_matmul_kernel i arg2 harg2 arg3 harg3 arg4 harg4 arg5 harg5 arg6 harg6) K := by
  simp only [cc2__big_matmul_kernel_eq_skeleton]; unfold cc2__big_matmul_kernel_skel
  unfold runPre2 runPost2 owns
  iintro ⟨⟨⟨%f0, %hf0, H0⟩, ⟨%f1, %hf1, H1⟩, ⟨%f2, %hf2, H2⟩, ⟨%f3, %hf3, H3⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]; · iapply (owns_of _ arg2 _ hf0); iexact H0
  isplitl [H1]; · iapply (owns_of _ arg3 _ hf1); iexact H1
  isplitl [H2]; · iapply (owns_of _ arg4 _ hf2); iexact H2
  isplitl [H3]
  · iexists _; isplitr
    swap; · iexact H3
    ipureintro
    sl_unfold_run_names
    rw [read_writes_cons_unit_zero _ _ zoff]
    unfold flushVal2
    simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]
  iexists _; isplitr
  swap; · iexact HS
  ipureintro
  sl_unfold_run_names
  rw [read_writes_cons_unit_zero _ _ zoff]
  simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]

set_option maxHeartbeats 1000000 in

theorem run2_TF (hc0 : cond2_0 i) (hc1 : ¬cond2_1 i) (E : Set ℕ) (K : PUnit → sProp 𝕄) :
    iprop(runPre2 c arg2 arg3 arg4 arg5 arg6 x0 x1 x2 d3 xs
        ∗ (runPost2 c arg2 arg3 arg4 arg5 arg6 x0 x1 x2 (d3) (k2_pay2 x0 x2 x1 k2_pay1) -∗ K ⟨⟩))
      ⊢ wp frame (wpE (defs₀ (F := F)) Variants.none c none) E (cc2__big_matmul_kernel i arg2 harg2 arg3 harg3 arg4 harg4 arg5 harg5 arg6 harg6) K := by
  simp only [cc2__big_matmul_kernel_eq_skeleton]; unfold cc2__big_matmul_kernel_skel
  unfold runPre2 runPost2 owns
  iintro ⟨⟨⟨%f0, %hf0, H0⟩, ⟨%f1, %hf1, H1⟩, ⟨%f2, %hf2, H2⟩, ⟨%f3, %hf3, H3⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]; · iapply (owns_of _ arg2 _ hf0); iexact H0
  isplitl [H1]; · iapply (owns_of _ arg3 _ hf1); iexact H1
  isplitl [H2]; · iapply (owns_of _ arg4 _ hf2); iexact H2
  isplitl [H3]; · iapply (owns_of _ arg5 _ hf3); iexact H3
  iexists _; isplitr
  swap; · iexact HS
  ipureintro
  sl_unfold_run_names
  rw [read_writes_cons_unit_zero _ _ zoff]
  simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]

set_option maxHeartbeats 1000000 in

theorem run2_FT (hc0 : ¬cond2_0 i) (hc1 : cond2_1 i) (E : Set ℕ) (K : PUnit → sProp 𝕄) :
    iprop(runPre2 c arg2 arg3 arg4 arg5 arg6 x0 x1 x2 d3 xs
        ∗ (runPost2 c arg2 arg3 arg4 arg5 arg6 x0 x1 x2 (flushVal2 (k2_pay2 x0 x2 x1 xs)) (k2_pay2 x0 x2 x1 xs) -∗ K ⟨⟩))
      ⊢ wp frame (wpE (defs₀ (F := F)) Variants.none c none) E (cc2__big_matmul_kernel i arg2 harg2 arg3 harg3 arg4 harg4 arg5 harg5 arg6 harg6) K := by
  simp only [cc2__big_matmul_kernel_eq_skeleton]; unfold cc2__big_matmul_kernel_skel
  unfold runPre2 runPost2 owns
  iintro ⟨⟨⟨%f0, %hf0, H0⟩, ⟨%f1, %hf1, H1⟩, ⟨%f2, %hf2, H2⟩, ⟨%f3, %hf3, H3⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]; · iapply (owns_of _ arg2 _ hf0); iexact H0
  isplitl [H1]; · iapply (owns_of _ arg3 _ hf1); iexact H1
  isplitl [H2]; · iapply (owns_of _ arg4 _ hf2); iexact H2
  isplitl [H3]
  · iexists _; isplitr
    swap; · iexact H3
    ipureintro
    sl_unfold_run_names
    rw [read_writes_cons_unit_zero _ _ zoff]
    unfold flushVal2
    simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]
  iexists _; isplitr
  swap; · iexact HS
  ipureintro
  sl_unfold_run_names
  rw [read_writes_cons_unit_zero _ _ zoff]
  simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]

set_option maxHeartbeats 1000000 in

theorem run2_FF (hc0 : ¬cond2_0 i) (hc1 : ¬cond2_1 i) (E : Set ℕ) (K : PUnit → sProp 𝕄) :
    iprop(runPre2 c arg2 arg3 arg4 arg5 arg6 x0 x1 x2 d3 xs
        ∗ (runPost2 c arg2 arg3 arg4 arg5 arg6 x0 x1 x2 (d3) (k2_pay2 x0 x2 x1 xs) -∗ K ⟨⟩))
      ⊢ wp frame (wpE (defs₀ (F := F)) Variants.none c none) E (cc2__big_matmul_kernel i arg2 harg2 arg3 harg3 arg4 harg4 arg5 harg5 arg6 harg6) K := by
  simp only [cc2__big_matmul_kernel_eq_skeleton]; unfold cc2__big_matmul_kernel_skel
  unfold runPre2 runPost2 owns
  iintro ⟨⟨⟨%f0, %hf0, H0⟩, ⟨%f1, %hf1, H1⟩, ⟨%f2, %hf2, H2⟩, ⟨%f3, %hf3, H3⟩, ⟨%fs, %hfs, HS⟩⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]; · iapply (owns_of _ arg2 _ hf0); iexact H0
  isplitl [H1]; · iapply (owns_of _ arg3 _ hf1); iexact H1
  isplitl [H2]; · iapply (owns_of _ arg4 _ hf2); iexact H2
  isplitl [H3]; · iapply (owns_of _ arg5 _ hf3); iexact H3
  iexists _; isplitr
  swap; · iexact HS
  ipureintro
  sl_unfold_run_names
  rw [read_writes_cons_unit_zero _ _ zoff]
  simp only [View.readCov_cons_toLoadRect, View.readAt_eq_ld, harg2.read_unread, harg3.read_unread, harg4.read_unread, harg6.read_unread,
      View.ld_unit_zero (S := S1024x1024) zoff, View.ld_unit_zero (S := S1024x256) zoff, View.ld_unit_zero (S := S1x1024) zoff]

/-- The four cases are one statement: the accumulator ends at `acc2`, the output's buffer at `out2`. -/
theorem kernelRun2 (E : Set ℕ) (K : PUnit → sProp 𝕄) :
    iprop(runPre2 c arg2 arg3 arg4 arg5 arg6 x0 x1 x2 d3 xs
        ∗ (runPost2 c arg2 arg3 arg4 arg5 arg6 x0 x1 x2 (out2 i x0 x1 x2 d3 xs) (acc2 i x0 x1 x2 xs) -∗ K ⟨⟩))
      ⊢ wp frame (wpE (defs₀ (F := F)) Variants.none c none) E (cc2__big_matmul_kernel i arg2 harg2 arg3 harg3 arg4 harg4 arg5 harg5 arg6 harg6) K := by
  unfold out2 acc2
  by_cases hc0 : cond2_0 i <;> by_cases hc1 : cond2_1 i
  · rw [if_pos hc0, if_pos hc1]; exact run2_TT c i arg2 harg2 arg3 harg3 arg4 harg4 arg5 harg5 arg6 harg6 x0 x1 x2 d3 xs hc0 hc1 E K
  · rw [if_pos hc0, if_neg hc1]; exact run2_TF c i arg2 harg2 arg3 harg3 arg4 harg4 arg5 harg5 arg6 harg6 x0 x1 x2 d3 xs hc0 hc1 E K
  · rw [if_neg hc0, if_pos hc1]; exact run2_FT c i arg2 harg2 arg3 harg3 arg4 harg4 arg5 harg5 arg6 harg6 x0 x1 x2 d3 xs hc0 hc1 E K
  · rw [if_neg hc0, if_neg hc1]; exact run2_FF c i arg2 harg2 arg3 harg3 arg4 harg4 arg5 harg5 arg6 harg6 x0 x1 x2 d3 xs hc0 hc1 E K

end Run

end Cert.KernelIdeal.GW

end
-- ==== Proof.KI.Spectral2.lean ====
/-
  The first layer's filtered forward transform as a region of the run: an 8×8 grid, the contraction accumulated block by block in a
  scratch array that the region's invariant carries from point to point.
-/
import proofs.«113573_j27281632264453_1_alg».proof.Proof.KI.SpectralBody2

set_option maxRecDepth 16384

noncomputable section

namespace Cert.KernelIdeal.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen Cert.GW

variable {F : FTy → Type} [FloatOps F]

local notation "𝕄" => MT nD τ sig Unit (Elt F) ℕ (UR sig nD τ) ℕ

theorem liveAt2_3 (t : Fin cfg2.N) (h : cond2_1 (grid2.coords t)) : cfg2.idle 3 (grid2.coords t) = false := by
  show (!(k2_cond2 (grid2.coords t) == 1#1)) = false
  rw [show k2_cond2 (grid2.coords t) = 1#1 from h]; rfl

theorem idleAt2_3 (t : Fin cfg2.N) (h : ¬cond2_1 (grid2.coords t)) : cfg2.idle 3 (grid2.coords t) = true := by
  show (!(k2_cond2 (grid2.coords t) == 1#1)) = true
  rw [Bool.not_eq_true', beq_eq_false_iff_ne]; exact h

theorem noFlush2_3 (t : Fin cfg2.N) (h : ¬cond2_1 (grid2.coords t)) : (cfg2.win 3).flush t = false := by
  rw [← Bool.not_eq_true, flush2_3 t, ← hcond2_1 t]; exact h

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the accumulator holds after position `n`: the fold of the body's step from the row's first point. -/
def sAt2 (c : Dev nD) : (n : ℕ) → n < cfg2.N → Vec F S1024x256 .f32
  | 0, hn => k2_pay2 (iblk2 V c 0 ⟨0, hn⟩) (iblk2 V c 2 ⟨0, hn⟩) (iblk2 V c 1 ⟨0, hn⟩) k2_pay1
  | n + 1, hn => k2_pay2 (iblk2 V c 0 ⟨n + 1, hn⟩) (iblk2 V c 2 ⟨n + 1, hn⟩) (iblk2 V c 1 ⟨n + 1, hn⟩)
      (if (n + 1) % 8 = 0 then k2_pay1 else sAt2 c n (Nat.lt_of_succ_lt hn))

theorem sAt2_reset (c : Dev nD) (t : Fin cfg2.N) (h : t.val % 8 = 0) :
    sAt2 V c t.val t.isLt = k2_pay2 (iblk2 V c 0 t) (iblk2 V c 2 t) (iblk2 V c 1 t) k2_pay1 := by
  obtain ⟨n, hn⟩ := t
  cases n with
  | zero => rfl
  | succ n => exact (congrArg (k2_pay2 _ _ _) (if_pos h))

theorem sAt2_step (c : Dev nD) (t : Fin cfg2.N) (h : ¬t.val % 8 = 0) :
    sAt2 V c t.val t.isLt = k2_pay2 (iblk2 V c 0 t) (iblk2 V c 2 t) (iblk2 V c 1 t)
      (sAt2 V c (t.val - 1) (Nat.lt_of_le_of_lt (Nat.sub_le _ _) t.isLt)) := by
  obtain ⟨n, hn⟩ := t
  cases n with
  | zero => exact absurd (Nat.zero_mod _) h
  | succ n => exact (congrArg (k2_pay2 _ _ _) (if_neg h))

theorem acc_eq_sAt2 (c : Dev nD) (t : Fin cfg2.N) (xs : Vec F S1024x256 .f32)
    (hxs : t.val ≠ 0 → xs = sAt2 V c (t.val - 1) (Nat.lt_of_le_of_lt (Nat.sub_le _ _) t.isLt)) :
    acc2 (grid2.coords t) (iblk2 V c 0 t) (iblk2 V c 1 t) (iblk2 V c 2 t) xs = sAt2 V c t.val t.isLt := by
  unfold acc2
  by_cases h : t.val % 8 = 0
  · rw [if_pos ((hcond2_0 t).mpr h), sAt2_reset V c t h]
  · rw [if_neg (fun hc => h ((hcond2_0 t).mp hc)), sAt2_step V c t h, hxs (fun hz => h (by rw [hz]))]

abbrev scM2 : Memref sig .tc .vmem S1024x256 .f32 := Memref.whole cc2_scratch0

abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA; rw [scopedRest2_split]; simp only [scM2, owns_whole]; try rfl

/-- The invariant before position `n`: the accumulator owned at some contents, which from the second position on are
    what the point before left. -/
def PhiS2 (c : Dev nD) (n : ℕ) (hn : n ≤ cfg2.N) : sProp 𝕄 :=
  iprop(∃ xs, ⌜∀ h : n ≠ 0, xs = sAt2 V c (n - 1) (by omega)⌝
    ∗ owns (c : Thread nD τ) scM2 fullShare xs ∗ rest2 c ∗ (∃ r, prngReg c r))

/-- The region's proof data: what the body leaves for each window, and the invariant that carries the accumulator. -/
def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => flushVal2 (sAt2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = flushVal2 (sAt2 V c t.val t.isLt) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) :
    (dat2 V c).leavesExact 0 t = owns (c : Thread nD τ) (st2_0 t) fullShare (iblk2 V c 0 t) := by
  unfold Dat.leavesExact; rw [show cfg2.idle 0 (grid2.coords t) = false from rfl, after2_0]
theorem leaves2_1 (c : Dev nD) (t : Fin cfg2.N) :
    (dat2 V c).leavesExact 1 t = owns (c : Thread nD τ) (st2_1 t) fullShare (iblk2 V c 1 t) := by
  unfold Dat.leavesExact; rw [show cfg2.idle 1 (grid2.coords t) = false from rfl, after2_1]
theorem leaves2_2 (c : Dev nD) (t : Fin cfg2.N) :
    (dat2 V c).leavesExact 2 t = owns (c : Thread nD τ) (st2_2 t) fullShare (iblk2 V c 2 t) := by
  unfold Dat.leavesExact; rw [show cfg2.idle 2 (grid2.coords t) = false from rfl, after2_2]

theorem leaves2_3_live (c : Dev nD) (t : Fin cfg2.N) (h : cond2_1 (grid2.coords t)) :
    (dat2 V c).leavesExact 3 t = owns (c : Thread nD τ) (st2_3 t) fullShare (flushVal2 (sAt2 V c t.val t.isLt)) := by
  unfold Dat.leavesExact; rw [liveAt2_3 t h, after2_3]

theorem leaves2_3_idle (c : Dev nD) (t : Fin cfg2.N) (h : ¬cond2_1 (grid2.coords t)) :
    (dat2 V c).leavesExact 3 t = iprop(∃ d, owns (c : Thread nD τ) (st2_3 t) fullShare ((dat2 V c).before 3 t d)) :=
  Dat.leavesExact_idle (dat2 V c) 3 t (idleAt2_3 t h) (noFlush2_3 t h)

set_option maxHeartbeats 1000000 in

/-- The body at any point, from the invariant and the point's blocks. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl,
    show (dat2 V c).Φ t.castSucc = PhiS2 V c t.val (Nat.le_of_lt t.isLt) from rfl]
  unfold PhiS2
  rw [leaves2_0, leaves2_1, leaves2_2]
  iintro ⟨⟨%xs, %hxs, HS, HR, Hg⟩, Ho, ⟨%d0, H0⟩, ⟨%d1, H1⟩, ⟨%d2, H2⟩, ⟨%d3, H3⟩⟩
  iapply (kernelRun2 c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3))
    scM2 (Memref.isWhole_whole _) (iblk2 V c 0 t) (iblk2 V c 1 t) (iblk2 V c 2 t) ((dat2 V c).before 3 t d3) xs Set.univ _)
  rw [acc_eq_sAt2 V c t xs hxs]
  isplitl [H0 H1 H2 H3 HS]
  · isplitl [H0]; · iexact H0
    isplitl [H1]; · iexact H1
    isplitl [H2]; · iexact H2
    isplitl [H3]; · iexact H3
    iexact HS
  iintro ⟨H0, H1, H2, H3, HS⟩
  isplitl [HS HR Hg]
  · iexists (sAt2 V c t.val t.isLt); isplitr; · ipureintro; exact fun _ => rfl
    isplitl [HS]; · iexact HS
    isplitl [HR]; · iexact HR
    iexact Hg
  isplitl [Ho]; · iexact Ho
  isplitl [H0]; · iexact H0
  isplitl [H1]; · iexact H1
  isplitl [H2]; · iexact H2
  unfold out2
  rw [acc_eq_sAt2 V c t xs hxs]
  by_cases h7 : cond2_1 (grid2.coords t)
  · rw [if_pos h7, leaves2_3_live V c t h7]; iexact H3
  · rw [if_neg h7, leaves2_3_idle V c t h7]; iexists d3; iexact H3

theorem body_obligation2 (c : Dev nD) : BodyObligation (dat2 (F := F) V c) (defs₀ (F := F)) Variants.none () Set.univ := fun t => by
  rw [bigSep_W2, bigSep_W2]
  exact sound_body2 V c t

/-- What the launch hands the region is the invariant before the first point: nothing is said of the accumulator there. -/
theorem hin2 (c : Dev nD) : (Pipeline.ΦA spec2 c : sProp 𝕄) ⊢ (dat2 V c).Φ 0 := by
  rw [PhiA2_eq, show (dat2 V c).Φ 0 = PhiS2 V c 0 (Nat.zero_le _) from rfl]
  unfold PhiS2
  iintro ⟨⟨⟨%d, HS⟩, HR⟩, Hg⟩
  iexists d; isplitr; · ipureintro; exact fun h => absurd rfl h
  isplitl [HS]; · iexact HS
  isplitl [HR]; · iexact HR
  iexact Hg

/-- After the last point the accumulator's contents are forgotten again. -/
theorem hout2 (c : Dev nD) : (dat2 V c).Φ (Fin.last cfg2.N) ⊢ (Pipeline.ΦA spec2 c : sProp 𝕄) := by
  rw [PhiA2_eq, show (dat2 V c).Φ (Fin.last cfg2.N) = PhiS2 V c cfg2.N (Nat.le_refl _) from rfl]
  unfold PhiS2
  iintro ⟨%xs, %hxs, HS, HR, Hg⟩
  isplitl [HS HR]
  · isplitl [HS]
    · iexists _; iexact HS
    iexact HR
  iexact Hg

end Cert.KernelIdeal.GW

end
-- ==== Proof.KI.Dense3.lean ====
/-
  The second feature map h·W2 as a region: four row blocks of 2048 rows, each one matrix product into a zero accumulator.
-/
import proofs.«113573_j27281632264453_1_alg».proof.Proof.Gen.KernelIdeal.Launch
import proofs.«113573_j27281632264453_1_alg».proof.Proof.Gen.KernelIdeal.Skeleton
import proofs.«113573_j27281632264453_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113573_j27281632264453_1_alg».proof.Proof.Common

set_option maxRecDepth 16384

noncomputable section

namespace Cert.KernelIdeal.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen Cert.GW

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev outRect3 : Rect S2048x256 := Rect.unit (s := S2048x256) ![0, 0] S2048x256.size inb_S2048x256_S2048x256_0_0

def prodBlock3 (x : Vec F S2048x256 .f32) (wt : Vec F S256x256 .f32) : Vec F S2048x256 .f32 :=
  View.canon [⟨outRect3, k3_pay1 (View.ld x (Rect.unit (s := S2048x256) ![0, 0] S2048x256.size inb_S2048x256_S2048x256_0_0)) (View.ld wt (Rect.unit (s := S256x256) ![0, 0] S256x256.size inb_S256x256_S256x256_0_0))⟩]

theorem prodBlock3_covers (p : Vec F S2048x256 .f32) (y : S2048x256.Idx) :
    ∃ pc ∈ ([⟨outRect3, p⟩] : List (View.Piece (Elt F) S2048x256 .f32)), y ∈ pc.1.set :=
  View.cover_of_tiled [⟨outRect3, p⟩] S2048x256.size (by rfl) y

set_option maxHeartbeats 1000000 in

theorem dense3_runs (c : Dev nD) (E : Set ℕ) (i : grid3.Coords) (arg1 : Memref sig .tc .vmem S2048x256 .f32) (harg1 : arg1.IsWhole)
    (arg2 : Memref sig .tc .vmem S256x256 .f32) (harg2 : arg2.IsWhole) (arg3 : Memref sig .tc .vmem S2048x256 .f32) (harg3 : arg3.IsWhole)
    (x : Vec F S2048x256 .f32) (wt : Vec F S256x256 .f32) (K : PUnit → sProp 𝕄) :
    iprop(owns (c : Thread nD τ) arg1 fullShare x ∗ owns (c : Thread nD τ) arg2 fullShare wt ∗ (∃ d, owns (c : Thread nD τ) arg3 fullShare d)
        ∗ (iprop(owns (c : Thread nD τ) arg1 fullShare x ∗ owns (c : Thread nD τ) arg2 fullShare wt
            ∗ owns (c : Thread nD τ) arg3 fullShare (prodBlock3 x wt)) -∗ K ⟨⟩))
      ⊢ wp frame (wpE (defs₀ (F := F)) Variants.none c none) E (cc3__dense_kernel i arg1 harg1 arg2 harg2 arg3 harg3) K := by
  simp only [cc3__dense_kernel_eq_skeleton]; unfold cc3__dense_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]; · iapply (owns_of _ arg1 _ rfl); iexact H1
  isplitl [H2]; · iapply (owns_of _ arg2 _ rfl); iexact H2
  iexists _; isplitr
  swap; · iexact H3
  ipureintro
  exact View.read_writes_eq_canon _ _ _ (prodBlock3_covers _)

def dat3 (V : (c : Dev nD) → (b : Ref sig .tc) → Buf (Elt F) ((c : Thread nD τ).loc b)) (c : Dev nD) : Dat τ (Elt F) Unit ℕ (UR sig nD τ) ℕ cfg3 c where
  A w := V c (Pipeline.arrRef spec3 w)
  after w t := match w with
    | ⟨0, _⟩ => blockAt3 V c 0 t
    | ⟨1, _⟩ => blockAt3 V c 1 t
    | ⟨2, _⟩ => prodBlock3 (blockAt3 V c 0 t) (blockAt3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_rows (c : Dev nD) (t : Fin cfg3.N) : (dat3 V c).after 0 t = blockAt3 V c 0 t := by dsimp only [dat3]
theorem after3_weights (c : Dev nD) (t : Fin cfg3.N) : (dat3 V c).after 1 t = blockAt3 V c 1 t := by dsimp only [dat3]
theorem after3_out (c : Dev nD) (t : Fin cfg3.N) :
    (dat3 V c).after 2 t = prodBlock3 (blockAt3 V c 0 t) (blockAt3 V c 1 t) := by dsimp only [dat3]

theorem before3_rows (c : Dev nD) (t : Fin cfg3.N) (d) : (dat3 V c).before 0 t d = blockAt3 V c 0 t :=
  ((dat3 V c).before_in_eq_fetched 0 rfl (fun _ => rfl) (fun _ _ _ => rfl)
    (fun t => by rw [after3_rows]; unfold Dat.blockOf blockAt3; rw [A_eq3]; try rfl) t d).trans
    (by unfold Dat.fetched Dat.blockOf blockAt3; rw [A_eq3]; try rfl)
theorem before3_weights (c : Dev nD) (t : Fin cfg3.N) (d) : (dat3 V c).before 1 t d = blockAt3 V c 1 t :=
  ((dat3 V c).before_in_eq_fetched 1 rfl (fun _ => rfl) (fun _ _ _ => rfl)
    (fun t => by rw [after3_weights]; unfold Dat.blockOf blockAt3; rw [A_eq3]; try rfl) t d).trans
    (by unfold Dat.fetched Dat.blockOf blockAt3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem body3_at (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_rows, before3_weights]
  rw [show (dat3 V c).Φ t.succ = (dat3 V c).Φ t.castSucc from rfl,
    show (dat3 V c).owesAt () t.succ = (dat3 V c).owesAt () t.castSucc from rfl,
    after3_rows, after3_weights, after3_out]
  iintro ⟨HΦ, Ho, ⟨%d0, H0⟩, ⟨%d1, H1⟩, ⟨%d2, H2⟩⟩
  iapply (dense3_runs c Set.univ _ _ _ _ _ _ _ (blockAt3 V c 0 t) (blockAt3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact body3_at V c t

theorem hin3 (c : Dev nD) : (Pipeline.ΦA spec3 c : sProp 𝕄) ⊢ (dat3 V c).Φ 0 := by
  dsimp only [dat3]; exact BIBase.Entails.rfl
theorem hout3 (c : Dev nD) : (dat3 V c).Φ (Fin.last cfg3.N) ⊢ (Pipeline.ΦA spec3 c : sProp 𝕄) := by
  dsimp only [dat3]; exact BIBase.Entails.rfl

end Cert.KernelIdeal.GW

end
-- ==== Proof.KI.SpectralBody45.lean ====
/-
  The second layer's two transforms run the kernel function of the first layer's inverse transform, so its triple is theirs.
-/
import proofs.«113573_j27281632264453_1_alg».proof.Proof.KI.SpectralBody1

set_option maxRecDepth 16384

noncomputable section

namespace Cert.KernelIdeal.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.GW

variable {F : FTy → Type} [FloatOps F]

local notation "𝕄" => MT nD τ sig Unit (Elt F) ℕ (UR sig nD τ) ℕ

variable (c : Dev nD) (i : grid1.Coords)
  (arg2 : Memref sig .tc .vmem S1024x1024 .f32) (harg2 : arg2.IsWhole) (arg3 : Memref sig .tc .vmem S1024x256 .f32) (harg3 : arg3.IsWhole)
  (arg4 : Memref sig .tc .vmem S1x1024 .f32) (harg4 : arg4.IsWhole) (arg5 : Memref sig .tc .vmem S1024x256 .f32) (harg5 : arg5.IsWhole)
  (arg6 : Memref sig .tc .vmem S1024x256 .f32) (harg6 : arg6.IsWhole)
  (x0 : Vec F S1024x1024 .f32) (x1 : Vec F S1024x256 .f32) (x2 : Vec F S1x1024 .f32) (d3 xs : Vec F S1024x256 .f32)

theorem kernelRun4 (E : Set ℕ) (K : PUnit → sProp 𝕄) :
    iprop(runPre1 c arg2 arg3 arg4 arg5 arg6 x0 x1 x2 d3 xs
        ∗ (runPost1 c arg2 arg3 arg4 arg5 arg6 x0 x1 x2 (out1 i x0 x1 x2 d3 xs) (acc1 i x0 x1 x2 xs) -∗ K ⟨⟩))
      ⊢ wp frame (wpE (defs₀ (F := F)) Variants.none c none) E (cc4__big_matmul_kernel i arg2 harg2 arg3 harg3 arg4 harg4 arg5 harg5 arg6 harg6) K :=
  kernelRun1 c i arg2 harg2 arg3 harg3 arg4 harg4 arg5 harg5 arg6 harg6 x0 x1 x2 d3 xs E K

theorem kernelRun5 (E : Set ℕ) (K : PUnit → sProp 𝕄) :
    iprop(runPre1 c arg2 arg3 arg4 arg5 arg6 x0 x1 x2 d3 xs
        ∗ (runPost1 c arg2 arg3 arg4 arg5 arg6 x0 x1 x2 (out1 i x0 x1 x2 d3 xs) (acc1 i x0 x1 x2 xs) -∗ K ⟨⟩))
      ⊢ wp frame (wpE (defs₀ (F := F)) Variants.none c none) E (cc5__big_matmul_kernel i arg2 harg2 arg3 harg3 arg4 harg4 arg5 harg5 arg6 harg6) K :=
  kernelRun1 c i arg2 harg2 arg3 harg3 arg4 harg4 arg5 harg5 arg6 harg6 x0 x1 x2 d3 xs E K

end Cert.KernelIdeal.GW

end
-- ==== Proof.KI.Spectral4.lean ====
/-
  The second layer's inverse transform as a region of the run: an 8×8 grid, the contraction accumulated block by block in a
  scratch array that the region's invariant carries from point to point.
-/
import proofs.«113573_j27281632264453_1_alg».proof.Proof.KI.SpectralBody45

set_option maxRecDepth 16384

noncomputable section

namespace Cert.KernelIdeal.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen Cert.GW

variable {F : FTy → Type} [FloatOps F]

local notation "𝕄" => MT nD τ sig Unit (Elt F) ℕ (UR sig nD τ) ℕ

theorem liveAt4_3 (t : Fin cfg4.N) (h : cond1_1 (grid4.coords t)) : cfg4.idle 3 (grid4.coords t) = false := by
  show (!(k1_cond2 (grid4.coords t) == 1#1)) = false
  rw [show k1_cond2 (grid4.coords t) = 1#1 from h]; rfl

theorem idleAt4_3 (t : Fin cfg4.N) (h : ¬cond1_1 (grid4.coords t)) : cfg4.idle 3 (grid4.coords t) = true := by
  show (!(k1_cond2 (grid4.coords t) == 1#1)) = true
  rw [Bool.not_eq_true', beq_eq_false_iff_ne]; exact h

theorem noFlush4_3 (t : Fin cfg4.N) (h : ¬cond1_1 (grid4.coords t)) : (cfg4.win 3).flush t = false := by
  rw [← Bool.not_eq_true, flush4_3 t, ← hcond1_1 t]; exact h

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the accumulator holds after position `n`: the fold of the body's step from the row's first point. -/
def sAt4 (c : Dev nD) : (n : ℕ) → n < cfg4.N → Vec F S1024x256 .f32
  | 0, hn => k1_pay2 (iblk4 V c 0 ⟨0, hn⟩) (iblk4 V c 2 ⟨0, hn⟩) (iblk4 V c 1 ⟨0, hn⟩) k1_pay1
  | n + 1, hn => k1_pay2 (iblk4 V c 0 ⟨n + 1, hn⟩) (iblk4 V c 2 ⟨n + 1, hn⟩) (iblk4 V c 1 ⟨n + 1, hn⟩)
      (if (n + 1) % 8 = 0 then k1_pay1 else sAt4 c n (Nat.lt_of_succ_lt hn))

theorem sAt4_reset (c : Dev nD) (t : Fin cfg4.N) (h : t.val % 8 = 0) :
    sAt4 V c t.val t.isLt = k1_pay2 (iblk4 V c 0 t) (iblk4 V c 2 t) (iblk4 V c 1 t) k1_pay1 := by
  obtain ⟨n, hn⟩ := t
  cases n with
  | zero => rfl
  | succ n => exact (congrArg (k1_pay2 _ _ _) (if_pos h))

theorem sAt4_step (c : Dev nD) (t : Fin cfg4.N) (h : ¬t.val % 8 = 0) :
    sAt4 V c t.val t.isLt = k1_pay2 (iblk4 V c 0 t) (iblk4 V c 2 t) (iblk4 V c 1 t)
      (sAt4 V c (t.val - 1) (Nat.lt_of_le_of_lt (Nat.sub_le _ _) t.isLt)) := by
  obtain ⟨n, hn⟩ := t
  cases n with
  | zero => exact absurd (Nat.zero_mod _) h
  | succ n => exact (congrArg (k1_pay2 _ _ _) (if_neg h))

theorem acc_eq_sAt4 (c : Dev nD) (t : Fin cfg4.N) (xs : Vec F S1024x256 .f32)
    (hxs : t.val ≠ 0 → xs = sAt4 V c (t.val - 1) (Nat.lt_of_le_of_lt (Nat.sub_le _ _) t.isLt)) :
    acc1 (grid4.coords t) (iblk4 V c 0 t) (iblk4 V c 1 t) (iblk4 V c 2 t) xs = sAt4 V c t.val t.isLt := by
  unfold acc1
  by_cases h : t.val % 8 = 0
  · rw [if_pos ((hcond1_0 t).mpr h), sAt4_reset V c t h]
  · rw [if_neg (fun hc => h ((hcond1_0 t).mp hc)), sAt4_step V c t h, hxs (fun hz => h (by rw [hz]))]

abbrev scM4 : Memref sig .tc .vmem S1024x256 .f32 := Memref.whole cc4_scratch0

abbrev rest4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop((∃ d, owns (c : Thread nD τ) scM4 fullShare d) ∗ rest4 c) ∗ (∃ r, prngReg c r)) := by
  unfold Pipeline.ΦA; rw [scopedRest4_split]; simp only [scM4, owns_whole]; try rfl

/-- The invariant before position `n`: the accumulator owned at some contents, which from the second position on are
    what the point before left. -/
def PhiS4 (c : Dev nD) (n : ℕ) (hn : n ≤ cfg4.N) : sProp 𝕄 :=
  iprop(∃ xs, ⌜∀ h : n ≠ 0, xs = sAt4 V c (n - 1) (by omega)⌝
    ∗ owns (c : Thread nD τ) scM4 fullShare xs ∗ rest4 c ∗ (∃ r, prngReg c r))

/-- The region's proof data: what the body leaves for each window, and the invariant that carries the accumulator. -/
def dat4 (V : (c : Dev nD) → (b : Ref sig .tc) → Buf (Elt F) ((c : Thread nD τ).loc b)) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => flushVal1 (sAt4 V c t.val t.isLt)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = flushVal1 (sAt4 V c t.val t.isLt) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

theorem leaves4_0 (c : Dev nD) (t : Fin cfg4.N) :
    (dat4 V c).leavesExact 0 t = owns (c : Thread nD τ) (st4_0 t) fullShare (iblk4 V c 0 t) := by
  unfold Dat.leavesExact; rw [show cfg4.idle 0 (grid4.coords t) = false from rfl, after4_0]
theorem leaves4_1 (c : Dev nD) (t : Fin cfg4.N) :
    (dat4 V c).leavesExact 1 t = owns (c : Thread nD τ) (st4_1 t) fullShare (iblk4 V c 1 t) := by
  unfold Dat.leavesExact; rw [show cfg4.idle 1 (grid4.coords t) = false from rfl, after4_1]
theorem leaves4_2 (c : Dev nD) (t : Fin cfg4.N) :
    (dat4 V c).leavesExact 2 t = owns (c : Thread nD τ) (st4_2 t) fullShare (iblk4 V c 2 t) := by
  unfold Dat.leavesExact; rw [show cfg4.idle 2 (grid4.coords t) = false from rfl, after4_2]

theorem leaves4_3_live (c : Dev nD) (t : Fin cfg4.N) (h : cond1_1 (grid4.coords t)) :
    (dat4 V c).leavesExact 3 t = owns (c : Thread nD τ) (st4_3 t) fullShare (flushVal1 (sAt4 V c t.val t.isLt)) := by
  unfold Dat.leavesExact; rw [liveAt4_3 t h, after4_3]

theorem leaves4_3_idle (c : Dev nD) (t : Fin cfg4.N) (h : ¬cond1_1 (grid4.coords t)) :
    (dat4 V c).leavesExact 3 t = iprop(∃ d, owns (c : Thread nD τ) (st4_3 t) fullShare ((dat4 V c).before 3 t d)) :=
  Dat.leavesExact_idle (dat4 V c) 3 t (idleAt4_3 t h) (noFlush4_3 t h)

set_option maxHeartbeats 1000000 in

/-- The body at any point, from the invariant and the point's blocks. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl,
    show (dat4 V c).Φ t.castSucc = PhiS4 V c t.val (Nat.le_of_lt t.isLt) from rfl]
  unfold PhiS4
  rw [leaves4_0, leaves4_1, leaves4_2]
  iintro ⟨⟨%xs, %hxs, HS, HR, Hg⟩, Ho, ⟨%d0, H0⟩, ⟨%d1, H1⟩, ⟨%d2, H2⟩, ⟨%d3, H3⟩⟩
  iapply (kernelRun4 c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3))
    scM4 (Memref.isWhole_whole _) (iblk4 V c 0 t) (iblk4 V c 1 t) (iblk4 V c 2 t) ((dat4 V c).before 3 t d3) xs Set.univ _)
  rw [acc_eq_sAt4 V c t xs hxs]
  isplitl [H0 H1 H2 H3 HS]
  · isplitl [H0]; · iexact H0
    isplitl [H1]; · iexact H1
    isplitl [H2]; · iexact H2
    isplitl [H3]; · iexact H3
    iexact HS
  iintro ⟨H0, H1, H2, H3, HS⟩
  isplitl [HS HR Hg]
  · iexists (sAt4 V c t.val t.isLt); isplitr; · ipureintro; exact fun _ => rfl
    isplitl [HS]; · iexact HS
    isplitl [HR]; · iexact HR
    iexact Hg
  isplitl [Ho]; · iexact Ho
  isplitl [H0]; · iexact H0
  isplitl [H1]; · iexact H1
  isplitl [H2]; · iexact H2
  unfold out1
  rw [acc_eq_sAt4 V c t xs hxs]
  by_cases h7 : cond1_1 (grid4.coords t)
  · rw [if_pos h7, leaves4_3_live V c t h7]; iexact H3
  · rw [if_neg h7, leaves4_3_idle V c t h7]; iexists d3; iexact H3

theorem body_obligation4 (c : Dev nD) : BodyObligation (dat4 (F := F) V c) (defs₀ (F := F)) Variants.none () Set.univ := fun t => by
  rw [bigSep_W4, bigSep_W4]
  exact sound_body4 V c t

/-- What the launch hands the region is the invariant before the first point: nothing is said of the accumulator there. -/
theorem hin4 (c : Dev nD) : (Pipeline.ΦA spec4 c : sProp 𝕄) ⊢ (dat4 V c).Φ 0 := by
  rw [PhiA4_eq, show (dat4 V c).Φ 0 = PhiS4 V c 0 (Nat.zero_le _) from rfl]
  unfold PhiS4
  iintro ⟨⟨⟨%d, HS⟩, HR⟩, Hg⟩
  iexists d; isplitr; · ipureintro; exact fun h => absurd rfl h
  isplitl [HS]; · iexact HS
  isplitl [HR]; · iexact HR
  iexact Hg

/-- After the last point the accumulator's contents are forgotten again. -/
theorem hout4 (c : Dev nD) : (dat4 V c).Φ (Fin.last cfg4.N) ⊢ (Pipeline.ΦA spec4 c : sProp 𝕄) := by
  rw [PhiA4_eq, show (dat4 V c).Φ (Fin.last cfg4.N) = PhiS4 V c cfg4.N (Nat.le_refl _) from rfl]
  unfold PhiS4
  iintro ⟨%xs, %hxs, HS, HR, Hg⟩
  isplitl [HS HR]
  · isplitl [HS]
    · iexists _; iexact HS
    iexact HR
  iexact Hg

end Cert.KernelIdeal.GW

end
-- ==== Proof.KI.Spectral5.lean ====
/-
  The second layer's filtered forward transform as a region of the run: an 8×8 grid, the contraction accumulated block by block in a
  scratch array that the region's invariant carries from point to point.
-/
import proofs.«113573_j27281632264453_1_alg».proof.Proof.KI.SpectralBody45

set_option maxRecDepth 16384

noncomputable section

namespace Cert.KernelIdeal.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen Cert.GW

variable {F : FTy → Type} [FloatOps F]

local notation "𝕄" => MT nD τ sig Unit (Elt F) ℕ (UR sig nD τ) ℕ

theorem liveAt5_3 (t : Fin cfg5.N) (h : cond1_1 (grid5.coords t)) : cfg5.idle 3 (grid5.coords t) = false := by
  show (!(k1_cond2 (grid5.coords t) == 1#1)) = false
  rw [show k1_cond2 (grid5.coords t) = 1#1 from h]; rfl

theorem idleAt5_3 (t : Fin cfg5.N) (h : ¬cond1_1 (grid5.coords t)) : cfg5.idle 3 (grid5.coords t) = true := by
  show (!(k1_cond2 (grid5.coords t) == 1#1)) = true
  rw [Bool.not_eq_true', beq_eq_false_iff_ne]; exact h

theorem noFlush5_3 (t : Fin cfg5.N) (h : ¬cond1_1 (grid5.coords t)) : (cfg5.win 3).flush t = false := by
  rw [← Bool.not_eq_true, flush5_3 t, ← hcond1_1 t]; exact h

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the accumulator holds after position `n`: the fold of the body's step from the row's first point. -/
def sAt5 (c : Dev nD) : (n : ℕ) → n < cfg5.N → Vec F S1024x256 .f32
  | 0, hn => k1_pay2 (iblk5 V c 0 ⟨0, hn⟩) (iblk5 V c 2 ⟨0, hn⟩) (iblk5 V c 1 ⟨0, hn⟩) k1_pay1
  | n + 1, hn => k1_pay2 (iblk5 V c 0 ⟨n + 1, hn⟩) (iblk5 V c 2 ⟨n + 1, hn⟩) (iblk5 V c 1 ⟨n + 1, hn⟩)
      (if (n + 1) % 8 = 0 then k1_pay1 else sAt5 c n (Nat.lt_of_succ_lt hn))

theorem sAt5_reset (c : Dev nD) (t : Fin cfg5.N) (h : t.val % 8 = 0) :
    sAt5 V c t.val t.isLt = k1_pay2 (iblk5 V c 0 t) (iblk5 V c 2 t) (iblk5 V c 1 t) k1_pay1 := by
  obtain ⟨n, hn⟩ := t
  cases n with
  | zero => rfl
  | succ n => exact (congrArg (k1_pay2 _ _ _) (if_pos h))

theorem sAt5_step (c : Dev nD) (t : Fin cfg5.N) (h : ¬t.val % 8 = 0) :
    sAt5 V c t.val t.isLt = k1_pay2 (iblk5 V c 0 t) (iblk5 V c 2 t) (iblk5 V c 1 t)
      (sAt5 V c (t.val - 1) (Nat.lt_of_le_of_lt (Nat.sub_le _ _) t.isLt)) := by
  obtain ⟨n, hn⟩ := t
  cases n with
  | zero => exact absurd (Nat.zero_mod _) h
  | succ n => exact (congrArg (k1_pay2 _ _ _) (if_neg h))

theorem acc_eq_sAt5 (c : Dev nD) (t : Fin cfg5.N) (xs : Vec F S1024x256 .f32)
    (hxs : t.val ≠ 0 → xs = sAt5 V c (t.val - 1) (Nat.lt_of_le_of_lt (Nat.sub_le _ _) t.isLt)) :
    acc1 (grid5.coords t) (iblk5 V c 0 t) (iblk5 V c 1 t) (iblk5 V c 2 t) xs = sAt5 V c t.val t.isLt := by
  unfold acc1
  by_cases h : t.val % 8 = 0
  · rw [if_pos ((hcond1_0 t).mpr h), sAt5_reset V c t h]
  · rw [if_neg (fun hc => h ((hcond1_0 t).mp hc)), sAt5_step V c t h, hxs (fun hz => h (by rw [hz]))]

abbrev scM5 : Memref sig .tc .vmem S1024x256 .f32 := Memref.whole cc5_scratch0

abbrev rest5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop((∃ d, owns (c : Thread nD τ) scM5 fullShare d) ∗ rest5 c) ∗ (∃ r, prngReg c r)) := by
  unfold Pipeline.ΦA; rw [scopedRest5_split]; simp only [scM5, owns_whole]; try rfl

/-- The invariant before position `n`: the accumulator owned at some contents, which from the second position on are
    what the point before left. -/
def PhiS5 (c : Dev nD) (n : ℕ) (hn : n ≤ cfg5.N) : sProp 𝕄 :=
  iprop(∃ xs, ⌜∀ h : n ≠ 0, xs = sAt5 V c (n - 1) (by omega)⌝
    ∗ owns (c : Thread nD τ) scM5 fullShare xs ∗ rest5 c ∗ (∃ r, prngReg c r))

/-- The region's proof data: what the body leaves for each window, and the invariant that carries the accumulator. -/
def dat5 (V : (c : Dev nD) → (b : Ref sig .tc) → Buf (Elt F) ((c : Thread nD τ).loc b)) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => flushVal1 (sAt5 V c t.val t.isLt)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = flushVal1 (sAt5 V c t.val t.isLt) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

theorem leaves5_0 (c : Dev nD) (t : Fin cfg5.N) :
    (dat5 V c).leavesExact 0 t = owns (c : Thread nD τ) (st5_0 t) fullShare (iblk5 V c 0 t) := by
  unfold Dat.leavesExact; rw [show cfg5.idle 0 (grid5.coords t) = false from rfl, after5_0]
theorem leaves5_1 (c : Dev nD) (t : Fin cfg5.N) :
    (dat5 V c).leavesExact 1 t = owns (c : Thread nD τ) (st5_1 t) fullShare (iblk5 V c 1 t) := by
  unfold Dat.leavesExact; rw [show cfg5.idle 1 (grid5.coords t) = false from rfl, after5_1]
theorem leaves5_2 (c : Dev nD) (t : Fin cfg5.N) :
    (dat5 V c).leavesExact 2 t = owns (c : Thread nD τ) (st5_2 t) fullShare (iblk5 V c 2 t) := by
  unfold Dat.leavesExact; rw [show cfg5.idle 2 (grid5.coords t) = false from rfl, after5_2]

theorem leaves5_3_live (c : Dev nD) (t : Fin cfg5.N) (h : cond1_1 (grid5.coords t)) :
    (dat5 V c).leavesExact 3 t = owns (c : Thread nD τ) (st5_3 t) fullShare (flushVal1 (sAt5 V c t.val t.isLt)) := by
  unfold Dat.leavesExact; rw [liveAt5_3 t h, after5_3]

theorem leaves5_3_idle (c : Dev nD) (t : Fin cfg5.N) (h : ¬cond1_1 (grid5.coords t)) :
    (dat5 V c).leavesExact 3 t = iprop(∃ d, owns (c : Thread nD τ) (st5_3 t) fullShare ((dat5 V c).before 3 t d)) :=
  Dat.leavesExact_idle (dat5 V c) 3 t (idleAt5_3 t h) (noFlush5_3 t h)

set_option maxHeartbeats 1000000 in

/-- The body at any point, from the invariant and the point's blocks. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl,
    show (dat5 V c).Φ t.castSucc = PhiS5 V c t.val (Nat.le_of_lt t.isLt) from rfl]
  unfold PhiS5
  rw [leaves5_0, leaves5_1, leaves5_2]
  iintro ⟨⟨%xs, %hxs, HS, HR, Hg⟩, Ho, ⟨%d0, H0⟩, ⟨%d1, H1⟩, ⟨%d2, H2⟩, ⟨%d3, H3⟩⟩
  iapply (kernelRun5 c (grid5.coords t) (st5_0 t) (hstage5_0 ((cfg5.slots t 0).cast nbuf5_0)) (st5_1 t) (hstage5_1 ((cfg5.slots t 1).cast nbuf5_1)) (st5_2 t) (hstage5_2 ((cfg5.slots t 2).cast nbuf5_2)) (st5_3 t) (hstage5_3 ((cfg5.slots t 3).cast nbuf5_3))
    scM5 (Memref.isWhole_whole _) (iblk5 V c 0 t) (iblk5 V c 1 t) (iblk5 V c 2 t) ((dat5 V c).before 3 t d3) xs Set.univ _)
  rw [acc_eq_sAt5 V c t xs hxs]
  isplitl [H0 H1 H2 H3 HS]
  · isplitl [H0]; · iexact H0
    isplitl [H1]; · iexact H1
    isplitl [H2]; · iexact H2
    isplitl [H3]; · iexact H3
    iexact HS
  iintro ⟨H0, H1, H2, H3, HS⟩
  isplitl [HS HR Hg]
  · iexists (sAt5 V c t.val t.isLt); isplitr; · ipureintro; exact fun _ => rfl
    isplitl [HS]; · iexact HS
    isplitl [HR]; · iexact HR
    iexact Hg
  isplitl [Ho]; · iexact Ho
  isplitl [H0]; · iexact H0
  isplitl [H1]; · iexact H1
  isplitl [H2]; · iexact H2
  unfold out1
  rw [acc_eq_sAt5 V c t xs hxs]
  by_cases h7 : cond1_1 (grid5.coords t)
  · rw [if_pos h7, leaves5_3_live V c t h7]; iexact H3
  · rw [if_neg h7, leaves5_3_idle V c t h7]; iexists d3; iexact H3

theorem body_obligation5 (c : Dev nD) : BodyObligation (dat5 (F := F) V c) (defs₀ (F := F)) Variants.none () Set.univ := fun t => by
  rw [bigSep_W5, bigSep_W5]
  exact sound_body5 V c t

/-- What the launch hands the region is the invariant before the first point: nothing is said of the accumulator there. -/
theorem hin5 (c : Dev nD) : (Pipeline.ΦA spec5 c : sProp 𝕄) ⊢ (dat5 V c).Φ 0 := by
  rw [PhiA5_eq, show (dat5 V c).Φ 0 = PhiS5 V c 0 (Nat.zero_le _) from rfl]
  unfold PhiS5
  iintro ⟨⟨⟨%d, HS⟩, HR⟩, Hg⟩
  iexists d; isplitr; · ipureintro; exact fun h => absurd rfl h
  isplitl [HS]; · iexact HS
  isplitl [HR]; · iexact HR
  iexact Hg

/-- After the last point the accumulator's contents are forgotten again. -/
theorem hout5 (c : Dev nD) : (dat5 V c).Φ (Fin.last cfg5.N) ⊢ (Pipeline.ΦA spec5 c : sProp 𝕄) := by
  rw [PhiA5_eq, show (dat5 V c).Φ (Fin.last cfg5.N) = PhiS5 V c cfg5.N (Nat.le_refl _) from rfl]
  unfold PhiS5
  iintro ⟨%xs, %hxs, HS, HR, Hg⟩
  isplitl [HS HR]
  · isplitl [HS]
    · iexists _; iexact HS
    iexact HR
  iexact Hg

end Cert.KernelIdeal.GW

end
-- ==== Proof.KI.Contents.lean ====
/-
  The buffer contents along the run: each region is entered from what its predecessor was entered from, with the
  predecessor's output array replaced by what it leaves.
-/
import proofs.«113573_j27281632264453_1_alg».proof.Proof.Gen.KernelIdeal.Regions
import proofs.«113573_j27281632264453_1_alg».proof.Proof.KI.Dense0
import proofs.«113573_j27281632264453_1_alg».proof.Proof.KI.Spectral1
import proofs.«113573_j27281632264453_1_alg».proof.Proof.KI.Spectral2
import proofs.«113573_j27281632264453_1_alg».proof.Proof.KI.Dense3
import proofs.«113573_j27281632264453_1_alg».proof.Proof.KI.Spectral4
import proofs.«113573_j27281632264453_1_alg».proof.Proof.KI.Spectral5

set_option maxRecDepth 16384

noncomputable section

namespace Cert.KernelIdeal.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.KernelIdeal.Gen

variable {F : FTy → Type} [FloatOps F]

local notation "𝕄" => MT nD τ sig Unit (Elt F) ℕ (UR sig nD τ) ℕ

variable (m : (ℓ : Loc nD τ sig) → Buf (Elt F) ℓ)

abbrev Conts : Type := (c : Dev nD) → (b : Ref sig .tc) → Buf (Elt F) ((c : Thread nD τ).loc b)

def En0 : Conts (F := F) := fun c b => Gen.V1 m c b

def res0 (c : Dev nD) : Buf (Elt F) ((c : Thread nD τ).loc main_v3) := (dat0 (En0 m) c).arrAt 2 cfg0.N

def En1 : Conts (F := F) := fun c => Function.update (En0 m c) main_v3 (res0 m c)

def res1 (c : Dev nD) : Buf (Elt F) ((c : Thread nD τ).loc main_v4) := (dat1 (En1 m) c).arrAt 3 cfg1.N

def En2 : Conts (F := F) := fun c => Function.update (En1 m c) main_v4 (res1 m c)

def res2 (c : Dev nD) : Buf (Elt F) ((c : Thread nD τ).loc main_v5) := (dat2 (En2 m) c).arrAt 3 cfg2.N

def En3 : Conts (F := F) := fun c => Function.update (En2 m c) main_v5 (res2 m c)

def res3 (c : Dev nD) : Buf (Elt F) ((c : Thread nD τ).loc main_v6) := (dat3 (En3 m) c).arrAt 2 cfg3.N

def En4 : Conts (F := F) := fun c => Function.update (En3 m c) main_v6 (res3 m c)

def res4 (c : Dev nD) : Buf (Elt F) ((c : Thread nD τ).loc main_v7) := (dat4 (En4 m) c).arrAt 3 cfg4.N

def En5 : Conts (F := F) := fun c => Function.update (En4 m c) main_v7 (res4 m c)

def res5 (c : Dev nD) : Buf (Elt F) ((c : Thread nD τ).loc main_v8) := (dat5 (En5 m) c).arrAt 3 cfg5.N

def En6 : Conts (F := F) := fun c => Function.update (En5 m c) main_v8 (res5 m c)

def outs : Gen.Outs (F := F) := fun J r c =>
  match J with
  | 2 => En1 m c r
  | 3 => En2 m c r
  | 4 => En3 m c r
  | 5 => En4 m c r
  | 6 => En5 m c r
  | 7 => En6 m c r
  | _ => En0 m c r

theorem update_tc (c : Dev nD) (W : Valuation τ sig (Elt F)) (E : (b : Ref sig .tc) → Buf (Elt F) ((c : Thread nD τ).loc b))
    (h : ∀ b : Ref sig .tc, W b = E b) (r : Ref sig .tc) (x : Buf (Elt F) ((c : Thread nD τ).loc r)) (b : Ref sig .tc) :
    Function.update W (Proc.devRef .tc r) x (Proc.devRef .tc b) = Function.update E r x b := by
  by_cases e : b = r
  · subst e; rw [Function.update_self, Function.update_self]
  · rw [Function.update_of_ne e, Function.update_of_ne (StableHlo.devRef_ne_of_ne e)]; exact h b

theorem V2_eq (c : Dev nD) (b : Ref sig .tc) : Gen.V2 m (outs m) c b = En1 m c b := by
  show Function.update (Gen.V1 m c) (Proc.devRef .tc main_v3) (En1 m c main_v3) (Proc.devRef .tc b) = _
  rw [show En1 m c main_v3 = res0 m c from Function.update_self ..]
  exact update_tc c _ (En0 m c) (fun _ => rfl) main_v3 _ b
theorem V3_eq (c : Dev nD) (b : Ref sig .tc) : Gen.V3 m (outs m) c b = En2 m c b := by
  show Function.update (Gen.V2 m (outs m) c) (Proc.devRef .tc main_v4) (En2 m c main_v4) (Proc.devRef .tc b) = _
  rw [show En2 m c main_v4 = res1 m c from Function.update_self ..]
  exact update_tc c _ (En1 m c) (V2_eq m c) main_v4 _ b
theorem V4_eq (c : Dev nD) (b : Ref sig .tc) : Gen.V4 m (outs m) c b = En3 m c b := by
  show Function.update (Gen.V3 m (outs m) c) (Proc.devRef .tc main_v5) (En3 m c main_v5) (Proc.devRef .tc b) = _
  rw [show En3 m c main_v5 = res2 m c from Function.update_self ..]
  exact update_tc c _ (En2 m c) (V3_eq m c) main_v5 _ b
theorem V5_eq (c : Dev nD) (b : Ref sig .tc) : Gen.V5 m (outs m) c b = En4 m c b := by
  show Function.update (Gen.V4 m (outs m) c) (Proc.devRef .tc main_v6) (En4 m c main_v6) (Proc.devRef .tc b) = _
  rw [show En4 m c main_v6 = res3 m c from Function.update_self ..]
  exact update_tc c _ (En3 m c) (V4_eq m c) main_v6 _ b
theorem V6_eq (c : Dev nD) (b : Ref sig .tc) : Gen.V6 m (outs m) c b = En5 m c b := by
  show Function.update (Gen.V5 m (outs m) c) (Proc.devRef .tc main_v7) (En5 m c main_v7) (Proc.devRef .tc b) = _
  rw [show En5 m c main_v7 = res4 m c from Function.update_self ..]
  exact update_tc c _ (En4 m c) (V5_eq m c) main_v7 _ b
theorem V7_eq (c : Dev nD) (b : Ref sig .tc) : Gen.V7 m (outs m) c b = En6 m c b := by
  show Function.update (Gen.V6 m (outs m) c) (Proc.devRef .tc main_v8) (En6 m c main_v8) (Proc.devRef .tc b) = _
  rw [show En6 m c main_v8 = res5 m c from Function.update_self ..]
  exact update_tc c _ (En5 m c) (V6_eq m c) main_v8 _ b

theorem En1_main_v3 (c : Dev nD) : En1 m c main_v3 = res0 m c := Function.update_self ..

theorem En2_main_v4 (c : Dev nD) : En2 m c main_v4 = res1 m c := Function.update_self ..

theorem En3_main_v5 (c : Dev nD) : En3 m c main_v5 = res2 m c := Function.update_self ..

theorem En4_main_v6 (c : Dev nD) : En4 m c main_v6 = res3 m c := Function.update_self ..

theorem En5_main_v7 (c : Dev nD) : En5 m c main_v7 = res4 m c := Function.update_self ..

theorem En6_main_v8 (c : Dev nD) : En6 m c main_v8 = res5 m c := Function.update_self ..

end Cert.KernelIdeal.GW

end
-- ==== Proof.KI.Run.lean ====
/-
  The run of @main: four host operations, then six kernel regions in a line. Each region's proof data become a segment
  of the run, entered from the contents the earlier items left; the frame follows.
-/
import proofs.«113573_j27281632264453_1_alg».proof.Proof.Gen.KernelIdeal.Regions
import proofs.«113573_j27281632264453_1_alg».proof.Proof.KI.Dense0
import proofs.«113573_j27281632264453_1_alg».proof.Proof.KI.Spectral1
import proofs.«113573_j27281632264453_1_alg».proof.Proof.KI.Spectral2
import proofs.«113573_j27281632264453_1_alg».proof.Proof.KI.Dense3
import proofs.«113573_j27281632264453_1_alg».proof.Proof.KI.Spectral4
import proofs.«113573_j27281632264453_1_alg».proof.Proof.KI.Spectral5
import proofs.«113573_j27281632264453_1_alg».proof.Proof.KI.Contents

set_option maxRecDepth 16384

noncomputable section

namespace Cert.KernelIdeal.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 6) → (c : Dev nD) → Dat τ (Elt F) Unit ℕ (UR sig nD τ) ℕ (cfgs p) c
  | ⟨0, _⟩ => fun c => dat0 (En0 m) c
  | ⟨1, _⟩ => fun c => dat1 (En1 m) c
  | ⟨2, _⟩ => fun c => dat2 (En2 m) c
  | ⟨3, _⟩ => fun c => dat3 (En3 m) c
  | ⟨4, _⟩ => fun c => dat4 (En4 m) c
  | ⟨5, _⟩ => fun c => dat5 (En5 m) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem held_eq (c : Dev nD) (W : Valuation τ sig (Elt F)) (E : (b : Ref sig .tc) → Buf (Elt F) ((c : Thread nD τ).loc b))
    (h : ∀ b : Ref sig .tc, W b = E b) :
    (StableHlo.held (c : Thread nD τ) (Pipeline.ucRefs τ sig) W : sProp 𝕄) = unscopedBufs c E := by
  rw [← Pipeline.unscopedBufs_held c W]; congr 1; exact funext h

set_option backward.isDefEq.respectTransparency.types false in
/-- A region as a segment of the run: entered from the contents the earlier items left, and left at those contents with its
    output array replaced. -/
def regionSeg (p : Fin 6) (lf : Pipeline.LaunchFacts (nD := nD) (τ := τ) cfgs p)
    (VIn VOut : Dev nD → Valuation τ sig (Elt F)) (EIn EOut : Conts (F := F))
    (hVIn : ∀ c (b : Ref sig .tc), VIn c b = EIn c b) (hVOut : ∀ c (b : Ref sig .tc), VOut c b = EOut c b)
    (hA : ∀ c w, (pdats m p c).A w = EIn c (Pipeline.arrRef (cfgs p).spec w))
    (hq : ∀ c w, (pdats m p c).q w = fullShare)
    (howed : ∀ c t, (pdats m p c).owed t = 0)
    (hrec : ∀ c, (pdats m p c).recorded 0 = Set.univ)
    (hbody : ∀ c, BodyObligation (pdats m p c) (defs₀ (F := F)) Variants.none () Set.univ)
    (hin : ∀ c, (Pipeline.ΦA (cfgs p).spec c : sProp 𝕄) ⊢ (pdats m p c).Φ 0)
    (hout : ∀ c, (pdats m p c).Φ (Fin.last (cfgs p).N) ⊢ (Pipeline.ΦA (cfgs p).spec c : sProp 𝕄))
    (hexit : ∀ c w, (pdats m p c).arrAt w (cfgs p).N = EOut c (Pipeline.arrRef (cfgs p).spec w))
    (hrest : ∀ c b, b ∉ Finset.univ.image (Pipeline.arrRef (cfgs p).spec) → EOut c b = EIn c b) :
    Pipeline.RegionSeg (pcfgs (F := F)) Gen.adm (pdats m) () defs₀ Variants.none L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (VIn c) ∗ R c)
  post c := iprop(StableHlo.held (c : Thread nD τ) (Pipeline.ucRefs τ sig) (VOut c) ∗ R c)
  X c := iprop(∃ r, prngReg c r)
  Y c := iprop(∃ r, prngReg c r)
  Z c := Pipeline.unscopedRest (Ix := Unit) (Name := ℕ) (U := UR sig nD τ) (Lvl := ℕ) (cfgs p).spec c (EIn c)
  hentry c := by
    rw [Pipeline.ownSems0_none, held_eq c (VIn c) (EIn c) (hVIn c)]
    have hsplit := Pipeline.arrays_of_unscopedBufs (p := p) (pcfgs (F := F)) Gen.adm (pdats m) lf.win lf.arr_whole c
      ((pdats m p c).share_full (hq c)) (EIn c) (hA c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr
      · ipureintro; exact fun x _ => Or.inl ((hrec c).symm ▸ Set.mem_univ x)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    rw [held_eq c (VOut c) (EOut c) (hVOut c)]
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (EIn c) (EOut c) ((pdats m p c).arrAt · (cfgs p).N) (hexit c) (hrest c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

theorem exit0 (c : Dev nD) : ∀ w : Fin 3, (dat0 (En0 m) c).arrAt w cfg0.N = En1 m c (Pipeline.arrRef spec0 w)
  | 0 => ((dat0 (En0 m) c).arrAt_in 0 rfl _).trans <| (A_eq0 (En0 m) c 0).trans (Function.update_of_ne (by decide) ..).symm
  | 1 => ((dat0 (En0 m) c).arrAt_in 1 rfl _).trans <| (A_eq0 (En0 m) c 1).trans (Function.update_of_ne (by decide) ..).symm
  | 2 => (En1_main_v3 m c).symm
  | ⟨_ + 3, h⟩ => absurd h (Nat.not_lt.2 (Nat.le_add_left _ _))

def reg0 : Pipeline.RegionSeg (pcfgs (F := F)) Gen.adm (pdats m) () defs₀ Variants.none L lv 0 :=
  regionSeg m 0 launch0 (Gen.V1 m) (Gen.V2 m (outs m)) (En0 m) (En1 m) (fun _ _ => rfl) (V2_eq m)
    (A_eq0 (En0 m)) (fun _ _ => rfl) (fun _ _ => rfl) (fun _ => rfl)
    (body_obligation0 (En0 m)) (hin0 (En0 m)) (hout0 (En0 m)) (exit0 m)
    fun c b hb => Function.update_of_ne (fun e => hb (Finset.mem_image.mpr ⟨2, Finset.mem_univ _, e.symm⟩)) ..

theorem exit1 (c : Dev nD) : ∀ w : Fin 4, (dat1 (En1 m) c).arrAt w cfg1.N = En2 m c (Pipeline.arrRef spec1 w)
  | 0 => ((dat1 (En1 m) c).arrAt_in 0 rfl _).trans <| (A_eq1 (En1 m) c 0).trans (Function.update_of_ne (by decide) ..).symm
  | 1 => ((dat1 (En1 m) c).arrAt_in 1 rfl _).trans <| (A_eq1 (En1 m) c 1).trans (Function.update_of_ne (by decide) ..).symm
  | 2 => ((dat1 (En1 m) c).arrAt_in 2 rfl _).trans <| (A_eq1 (En1 m) c 2).trans (Function.update_of_ne (by decide) ..).symm
  | 3 => (En2_main_v4 m c).symm
  | ⟨_ + 4, h⟩ => absurd h (Nat.not_lt.2 (Nat.le_add_left _ _))

def reg1 : Pipeline.RegionSeg (pcfgs (F := F)) Gen.adm (pdats m) () defs₀ Variants.none L lv 1 :=
  regionSeg m 1 launch1 (Gen.V2 m (outs m)) (Gen.V3 m (outs m)) (En1 m) (En2 m) (V2_eq m) (V3_eq m)
    (A_eq1 (En1 m)) (fun _ _ => rfl) (fun _ _ => rfl) (fun _ => rfl)
    (body_obligation1 (En1 m)) (hin1 (En1 m)) (hout1 (En1 m)) (exit1 m)
    fun c b hb => Function.update_of_ne (fun e => hb (Finset.mem_image.mpr ⟨3, Finset.mem_univ _, e.symm⟩)) ..

theorem exit2 (c : Dev nD) : ∀ w : Fin 4, (dat2 (En2 m) c).arrAt w cfg2.N = En3 m c (Pipeline.arrRef spec2 w)
  | 0 => ((dat2 (En2 m) c).arrAt_in 0 rfl _).trans <| (A_eq2 (En2 m) c 0).trans (Function.update_of_ne (by decide) ..).symm
  | 1 => ((dat2 (En2 m) c).arrAt_in 1 rfl _).trans <| (A_eq2 (En2 m) c 1).trans (Function.update_of_ne (by decide) ..).symm
  | 2 => ((dat2 (En2 m) c).arrAt_in 2 rfl _).trans <| (A_eq2 (En2 m) c 2).trans (Function.update_of_ne (by decide) ..).symm
  | 3 => (En3_main_v5 m c).symm
  | ⟨_ + 4, h⟩ => absurd h (Nat.not_lt.2 (Nat.le_add_left _ _))

def reg2 : Pipeline.RegionSeg (pcfgs (F := F)) Gen.adm (pdats m) () defs₀ Variants.none L lv 2 :=
  regionSeg m 2 launch2 (Gen.V3 m (outs m)) (Gen.V4 m (outs m)) (En2 m) (En3 m) (V3_eq m) (V4_eq m)
    (A_eq2 (En2 m)) (fun _ _ => rfl) (fun _ _ => rfl) (fun _ => rfl)
    (body_obligation2 (En2 m)) (hin2 (En2 m)) (hout2 (En2 m)) (exit2 m)
    fun c b hb => Function.update_of_ne (fun e => hb (Finset.mem_image.mpr ⟨3, Finset.mem_univ _, e.symm⟩)) ..

theorem exit3 (c : Dev nD) : ∀ w : Fin 3, (dat3 (En3 m) c).arrAt w cfg3.N = En4 m c (Pipeline.arrRef spec3 w)
  | 0 => ((dat3 (En3 m) c).arrAt_in 0 rfl _).trans <| (A_eq3 (En3 m) c 0).trans (Function.update_of_ne (by decide) ..).symm
  | 1 => ((dat3 (En3 m) c).arrAt_in 1 rfl _).trans <| (A_eq3 (En3 m) c 1).trans (Function.update_of_ne (by decide) ..).symm
  | 2 => (En4_main_v6 m c).symm
  | ⟨_ + 3, h⟩ => absurd h (Nat.not_lt.2 (Nat.le_add_left _ _))

def reg3 : Pipeline.RegionSeg (pcfgs (F := F)) Gen.adm (pdats m) () defs₀ Variants.none L lv 3 :=
  regionSeg m 3 launch3 (Gen.V4 m (outs m)) (Gen.V5 m (outs m)) (En3 m) (En4 m) (V4_eq m) (V5_eq m)
    (A_eq3 (En3 m)) (fun _ _ => rfl) (fun _ _ => rfl) (fun _ => rfl)
    (body_obligation3 (En3 m)) (hin3 (En3 m)) (hout3 (En3 m)) (exit3 m)
    fun c b hb => Function.update_of_ne (fun e => hb (Finset.mem_image.mpr ⟨2, Finset.mem_univ _, e.symm⟩)) ..

theorem exit4 (c : Dev nD) : ∀ w : Fin 4, (dat4 (En4 m) c).arrAt w cfg4.N = En5 m c (Pipeline.arrRef spec4 w)
  | 0 => ((dat4 (En4 m) c).arrAt_in 0 rfl _).trans <| (A_eq4 (En4 m) c 0).trans (Function.update_of_ne (by decide) ..).symm
  | 1 => ((dat4 (En4 m) c).arrAt_in 1 rfl _).trans <| (A_eq4 (En4 m) c 1).trans (Function.update_of_ne (by decide) ..).symm
  | 2 => ((dat4 (En4 m) c).arrAt_in 2 rfl _).trans <| (A_eq4 (En4 m) c 2).trans (Function.update_of_ne (by decide) ..).symm
  | 3 => (En5_main_v7 m c).symm
  | ⟨_ + 4, h⟩ => absurd h (Nat.not_lt.2 (Nat.le_add_left _ _))

def reg4 : Pipeline.RegionSeg (pcfgs (F := F)) Gen.adm (pdats m) () defs₀ Variants.none L lv 4 :=
  regionSeg m 4 launch4 (Gen.V5 m (outs m)) (Gen.V6 m (outs m)) (En4 m) (En5 m) (V5_eq m) (V6_eq m)
    (A_eq4 (En4 m)) (fun _ _ => rfl) (fun _ _ => rfl) (fun _ => rfl)
    (body_obligation4 (En4 m)) (hin4 (En4 m)) (hout4 (En4 m)) (exit4 m)
    fun c b hb => Function.update_of_ne (fun e => hb (Finset.mem_image.mpr ⟨3, Finset.mem_univ _, e.symm⟩)) ..

theorem exit5 (c : Dev nD) : ∀ w : Fin 4, (dat5 (En5 m) c).arrAt w cfg5.N = En6 m c (Pipeline.arrRef spec5 w)
  | 0 => ((dat5 (En5 m) c).arrAt_in 0 rfl _).trans <| (A_eq5 (En5 m) c 0).trans (Function.update_of_ne (by decide) ..).symm
  | 1 => ((dat5 (En5 m) c).arrAt_in 1 rfl _).trans <| (A_eq5 (En5 m) c 1).trans (Function.update_of_ne (by decide) ..).symm
  | 2 => ((dat5 (En5 m) c).arrAt_in 2 rfl _).trans <| (A_eq5 (En5 m) c 2).trans (Function.update_of_ne (by decide) ..).symm
  | 3 => (En6_main_v8 m c).symm
  | ⟨_ + 4, h⟩ => absurd h (Nat.not_lt.2 (Nat.le_add_left _ _))

def reg5 : Pipeline.RegionSeg (pcfgs (F := F)) Gen.adm (pdats m) () defs₀ Variants.none L lv 5 :=
  regionSeg m 5 launch5 (Gen.V6 m (outs m)) (Gen.V7 m (outs m)) (En5 m) (En6 m) (V6_eq m) (V7_eq m)
    (A_eq5 (En5 m)) (fun _ _ => rfl) (fun _ _ => rfl) (fun _ => rfl)
    (body_obligation5 (En5 m)) (hin5 (En5 m)) (hout5 (En5 m)) (exit5 m)
    fun c b hb => Function.update_of_ne (fun e => hb (Finset.mem_image.mpr ⟨3, Finset.mem_univ _, e.symm⟩)) ..

abbrev u₀ : UR sig nD τ := initOf (Pipeline.cells cfgs cellOf_inj) (Pipeline.launchToks cfgs cellOf_inj)
theorem launch_ghost : (ownU u₀ : sProp 𝕄)
    ⊢ |={Set.univ}=> iprop(BI.own ((emb₁ : Emb (UR sig nD τ) 𝕄) u₀) ∗ bigSep Finset.univ fun _ : Dev nD => (BI.emp : sProp 𝕄)) := by
  iintro Hu; imodintro
  isplitl [Hu]
  · iapply (show (ownU u₀ : sProp 𝕄) ⊢ BI.own ((emb₁ : Emb (UR sig nD τ) 𝕄) u₀) from .rfl)
    iexact Hu
  iapply (show (BI.emp : sProp 𝕄) ⊢ bigSep Finset.univ (fun _ : Dev nD => (BI.emp : sProp 𝕄)) from by rw [BI.bigSep_emp_const])
  iempintro

theorem owes_of_R (c : Dev nD) : R (F := F) c ⊢ (iprop(∃ W, owes (c : Thread nD τ) (0 : CellTallies nD τ sig Unit) W) : sProp 𝕄) := by
  iintro ⟨-, HO⟩; iexact HO

set_option backward.isDefEq.respectTransparency.types false in

/-- Every weakly fair execution terminates and leaves the seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond m (emb₁ : Emb (UR sig nD τ) 𝕄) () Variants.none L lv (fun _ _ => rfl) ρ (outs m) (pdats m)
    (O₀ := 0) (G := fun _ => iprop(emp)) (u₀ := u₀) (hu₀ := launch_ghost) (E := fun _ => R)
    (hE0 := by
      refine Pipeline.initEach L lv fun c => ?_
      iintro ⟨⟨-, HO, -, Hp, -⟩, -⟩
      imodintro
      isplitl [Hp]; · iexists _; iexact Hp
      iexists ∅; iexact HO)
    (hE6 := owes_of_R)
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)

end Cert.KernelIdeal.GW

end
-- ==== Proof.KI.RunValue.lean ====
/-
  The run once more with its last array named: what the sixth region leaves.
-/
import proofs.«113573_j27281632264453_1_alg».proof.Proof.KI.Run

set_option maxRecDepth 16384

noncomputable section

namespace Cert.KernelIdeal.GW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The same executions end with the last region's output array at what its write-backs leave. -/
theorem run_value : θ_run defs (onTc (τ := τ) (main (F := F))) ⟨m, fun _ => 0, ρ⟩ (fun r => ∀ c : Dev nD,
      r.2.mem ((c.tc : Thread nD τ).loc main_v8) = res5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) Gen.adm (pdats m) () cellOf_inj (emb₁ : Emb (UR sig nD τ) 𝕄) defs₀ Variants.none L lv m ρ main
    (Gen.segs m Variants.none L lv (fun _ => R) () (pdats m) (reg0 m) (reg1 m) (reg2 m) (reg3 m) (reg4 m) (reg5 m))
    (fun c Q => by
      rewrite [main_chain c, Pipeline.Seg.run_eq_chain,
        show (Gen.segs m Variants.none L lv (fun _ => R) () (pdats m) (reg0 m) (reg1 m) (reg2 m) (reg3 m) (reg4 m) (reg5 m) c).map Pipeline.Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()) ] from rfl]
      exact .rfl)
    (fun c => by simp only [Gen.segs, Pipeline.Seg.pipes_host, Pipeline.Seg.pipes_region, Pipeline.Seg.pipes_nil]; decide)
    0 (fun _ _ => rfl) (fun _ => iprop(emp)) u₀ launch_ghost
    (T₀ := fun c => iprop(StableHlo.held (c : Thread nD τ) (Pipeline.ucRefs τ sig) (Gen.V0 m c) ∗ R c))
    (Tₙ := fun c => StableHlo.held (c : Thread nD τ) (Pipeline.ucRefs τ sig) (Gen.V7 m (outs m) c))
    (hch := fun c => ⟨.rfl, .rfl, .rfl, .rfl, .rfl, .rfl, .rfl, sep_mono .rfl (owes_of_R c)⟩)
    (hinit := ?_)
    (QY := fun c s => s.mem ((c.tc : Thread nD τ).loc main_v8) = res5 m c
        ∧ s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_arg2) = m ((c.tc : Thread nD τ).loc main_arg2)
        ∧ s.mem ((c.tc : Thread nD τ).loc main_arg3) = m ((c.tc : Thread nD τ).loc main_arg3)
        ∧ s.mem ((c.tc : Thread nD τ).loc main_arg4) = m ((c.tc : Thread nD τ).loc main_arg4)
        ∧ s.mem ((c.tc : Thread nD τ).loc main_arg5) = m ((c.tc : Thread nD τ).loc main_arg5)
        ∧ s.mem ((c.tc : Thread nD τ).loc main_arg6) = m ((c.tc : Thread nD τ).loc main_arg6))
    (hfin := fun c s' => ?_) (hQ := fun _ h => h)
  ·
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (Gen.V7 m (outs m) c) s') $$ [Hh HSI]
    · isplitl [Hh] <;> iassumption
    icases Hr with ⟨%h, HSI⟩
    imodintro
    isplitr
    · ipureintro
      exact ⟨(h (Proc.devRef .tc main_v8) (mem_uc main_v8 (by decide))).trans ((V7_eq m c main_v8).trans (En6_main_v8 m c)),
          (h (Proc.devRef .tc main_arg0) (mem_uc main_arg0 (by decide))).trans (Gen.V7_main_arg0 m (outs m) c),
          (h (Proc.devRef .tc main_arg1) (mem_uc main_arg1 (by decide))).trans (Gen.V7_main_arg1 m (outs m) c),
          (h (Proc.devRef .tc main_arg2) (mem_uc main_arg2 (by decide))).trans (Gen.V7_main_arg2 m (outs m) c),
          (h (Proc.devRef .tc main_arg3) (mem_uc main_arg3 (by decide))).trans (Gen.V7_main_arg3 m (outs m) c),
          (h (Proc.devRef .tc main_arg4) (mem_uc main_arg4 (by decide))).trans (Gen.V7_main_arg4 m (outs m) c),
          (h (Proc.devRef .tc main_arg5) (mem_uc main_arg5 (by decide))).trans (Gen.V7_main_arg5 m (outs m) c),
          (h (Proc.devRef .tc main_arg6) (mem_uc main_arg6 (by decide))).trans (Gen.V7_main_arg6 m (outs m) c)⟩
    · iexact HSI

end Cert.KernelIdeal.GW

end
-- ==== Proof.Matmul.lean ====
/-
  A matrix product into the zero block, on the extended reals, is the plain sum over the contracted index.
-/
import Idealize.ShloMosaic.Lib.StackMember
import Idealize.ShloMosaic.PureOps.Ideal.Laws

noncomputable section

namespace Cert.GW

open Idealize.ShloMosaic Idealize.ShloMosaic.ValueIdx

/-- Both the kernel's product into a zero accumulator and the host's product are the sum over the contraction index. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (F := Ideal) (DotDims.plain m k n) prec A B (constant (⟨2, ![m, n]⟩ : Shape) .f32 0x00000000#32) (ix2 a b)
      = ∑ c : Fin k, A (ix2 a c) * B (ix2 c b) :=
  (Ideal.matmul_constant_zero_apply _ prec A B _).trans
    ((Ideal.dotGeneral_apply _ prec _ A B _).symm.trans (StackMember.dotGeneral_plain_apply prec A B a b))

end Cert.GW

end
-- ==== Proof.KI.DenseValue.lean ====
/-
  What the two dense regions leave, on the extended reals: the row blocks tile the product of the whole matrices.
-/
import proofs.«113573_j27281632264453_1_alg».proof.Proof.KI.Dense0
import proofs.«113573_j27281632264453_1_alg».proof.Proof.KI.Dense3
import proofs.«113573_j27281632264453_1_alg».proof.Proof.Spec
import proofs.«113573_j27281632264453_1_alg».proof.Proof.Matmul
import Idealize.ShloMosaic.Lib.Pipeline.Value
import Idealize.ShloMosaic.Lib.ValueIdx
import Idealize.ShloMosaic.PureOps.Ideal.Laws

set_option maxRecDepth 16384

noncomputable section

namespace Cert.KernelIdeal.GW

open Idealize.ShloMosaic Idealize.ShloMosaic.TcCoe Idealize.SL.Sem Idealize.ShloMosaic.ValueIdx
open Idealize.ShloMosaic.Pipeline (Dat)
open Cert.KernelIdeal.Gen Cert.GW

theorem origin2 : (![0, 0] : Fin 2 → Nat) = fun _ => 0 := funext fun a => by fin_cases a <;> rfl

theorem k0_pay1_apply (x : Vec Ideal S2048x512 .f32) (wt : Vec Ideal S512x256 .f32) (j : S2048x256.Idx) :
    k0_pay1 (F := Ideal) x wt j = ∑ k : Fin 512, x (ix2 (j 0) k) * wt (ix2 k (j 1)) := by
  obtain ⟨a, b, rfl⟩ : ∃ (a : Fin 2048) (b : Fin 256), j = ix2 a b := ⟨j 0, j 1, eq_ix2 j⟩
  unfold k0_pay1
  exact matmul_plain_zero_apply none _ _ a b

theorem k3_pay1_apply (x : Vec Ideal S2048x256 .f32) (wt : Vec Ideal S256x256 .f32) (j : S2048x256.Idx) :
    k3_pay1 (F := Ideal) x wt j = ∑ k : Fin 256, x (ix2 (j 0) k) * wt (ix2 k (j 1)) := by
  obtain ⟨a, b, rfl⟩ : ∃ (a : Fin 2048) (b : Fin 256), j = ix2 a b := ⟨j 0, j 1, eq_ix2 j⟩
  unfold k3_pay1
  rw [shapeCast_self]
  exact matmul_plain_zero_apply none _ _ a b

theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem rows0_read (V : (c : Dev nD) → (b : Ref sig .tc) → Buf (Elt Ideal) ((c : Thread nD τ).loc b)) (c : Dev nD) (t : Fin cfg0.N)
    (r : Fin 2048) (k : Fin 512) (i : S8192x256.Idx) (hi : (i 0).val = t.val * 2048 + r.val) :
    blockAt0 V c 0 t (ix2 r k) = (V c main_arg0 : S8192x512.Idx → EReal) (ix2 (i 0) k) := by
  obtain ⟨e0, e1, -, -, -, -⟩ := blockIdx0 t
  show V c main_arg0 (((cfg0.win 0).blk t).view.emb (ix2 r k)) = V c main_arg0 (ix2 (i 0) k)
  refine congrArg _ (funext fun a => Fin.ext ?_)
  match a with
  | ⟨0, _⟩ => show win0_0.index t (0 : Fin 2) * 2048 + 1 * r.val = (i 0).val; omega
  | ⟨1, _⟩ => show win0_0.index t (1 : Fin 2) * 512 + 1 * k.val = k.val; omega

theorem weights0_read (V : (c : Dev nD) → (b : Ref sig .tc) → Buf (Elt Ideal) ((c : Thread nD τ).loc b)) (c : Dev nD) (t : Fin cfg0.N)
    (k : Fin 512) (q : Fin 256) :
    blockAt0 V c 1 t (ix2 k q) = (V c main_arg3 : S512x256.Idx → EReal) (ix2 k q) := by
  obtain ⟨-, -, e2, e3, -, -⟩ := blockIdx0 t
  show V c main_arg3 (((cfg0.win 1).blk t).view.emb (ix2 k q)) = V c main_arg3 (ix2 k q)
  refine congrArg _ (funext fun a => Fin.ext ?_)
  match a with
  | ⟨0, _⟩ => show win0_1.index t (0 : Fin 2) * 512 + 1 * k.val = k.val; omega
  | ⟨1, _⟩ => show win0_1.index t (1 : Fin 2) * 256 + 1 * q.val = q.val; omega

theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.GWSpec.mm (n := 8192) (k := 512) (p := 256) (V c main_arg0) (V c main_arg3)) := by
  show (cfg0.win 2).cut (grid0.coords t) ((dat0 V c).after 2 t) = _
  rw [after0_out]
  unfold prodBlock0
  rw [View.canon_unit_zero origin2]
  simp only [View.ld_unit_zero (S := S2048x512) origin2, View.ld_unit_zero (S := S512x256) origin2]
  obtain ⟨-, -, -, -, e4, e5⟩ := blockIdx0 t
  funext j
  show k0_pay1 (F := Ideal) (blockAt0 V c 0 t) (blockAt0 V c 1 t) j
    = Cert.GWSpec.mm (n := 8192) (k := 512) (p := 256) (V c main_arg0) (V c main_arg3) (((cfg0.win 2).blk t).view.emb j)
  refine (k0_pay1_apply _ _ j).trans ?_
  unfold Cert.GWSpec.mm
  have h0 : ((((cfg0.win 2).blk t).view.emb j) 0).val = t.val * 2048 + (j 0).val := by
    show win0_2.index t (0 : Fin 2) * 2048 + 1 * (j 0).val = _; omega
  have h1 : (((cfg0.win 2).blk t).view.emb j) 1 = ⟨(j 1).val, (j 1).isLt⟩ := Fin.ext (by
    show win0_2.index t (1 : Fin 2) * 256 + 1 * (j 1).val = (j 1).val; omega)
  refine Finset.sum_congr rfl fun k _ => ?_
  rw [rows0_read V c t (j 0) k _ h0, weights0_read V c t k (j 1), h1]
  rfl

theorem mem_outBlock0 (t : Fin cfg0.N) (i : S8192x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v3).slice (win0_2.rect t)).set ↔ _
  rw [View.set_slice_whole, Rect.mem_set_unit]
  exact Iff.rfl

theorem outBlocks0_cover (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 4 := N_0
  let t : Fin cfg0.N := ⟨(i 0).val / 2048, by omega⟩
  have ht : t.val = (i 0).val / 2048 := rfl
  obtain ⟨-, -, -, -, e4, e5⟩ := blockIdx0 t
  refine ⟨t, flush0_2 t, ?_⟩
  rw [mem_outBlock0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

theorem final0 (V : (c : Dev nD) → (b : Ref sig .tc) → Buf (Elt Ideal) ((c : Thread nD τ).loc b)) (c : Dev nD) :
    (dat0 (F := Ideal) V c).arrAt 2 cfg0.N = Cert.GWSpec.mm (n := 8192) (k := 512) (p := 256) (V c main_arg0) (V c main_arg3) :=
  (dat0 (F := Ideal) V c).arrAt_eq_of_cover 2 _ (fun t _ => flushed0_eq V c t) outBlocks0_cover

theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem rows3_read (V : (c : Dev nD) → (b : Ref sig .tc) → Buf (Elt Ideal) ((c : Thread nD τ).loc b)) (c : Dev nD) (t : Fin cfg3.N)
    (r : Fin 2048) (k : Fin 256) (i : S8192x256.Idx) (hi : (i 0).val = t.val * 2048 + r.val) :
    blockAt3 V c 0 t (ix2 r k) = (V c main_v5 : S8192x256.Idx → EReal) (ix2 (i 0) k) := by
  obtain ⟨e0, e1, -, -, -, -⟩ := blockIdx3 t
  show V c main_v5 (((cfg3.win 0).blk t).view.emb (ix2 r k)) = V c main_v5 (ix2 (i 0) k)
  refine congrArg _ (funext fun a => Fin.ext ?_)
  match a with
  | ⟨0, _⟩ => show win3_0.index t (0 : Fin 2) * 2048 + 1 * r.val = (i 0).val; omega
  | ⟨1, _⟩ => show win3_0.index t (1 : Fin 2) * 256 + 1 * k.val = k.val; omega

theorem weights3_read (V : (c : Dev nD) → (b : Ref sig .tc) → Buf (Elt Ideal) ((c : Thread nD τ).loc b)) (c : Dev nD) (t : Fin cfg3.N)
    (k : Fin 256) (q : Fin 256) :
    blockAt3 V c 1 t (ix2 k q) = (V c main_arg4 : S256x256.Idx → EReal) (ix2 k q) := by
  obtain ⟨-, -, e2, e3, -, -⟩ := blockIdx3 t
  show V c main_arg4 (((cfg3.win 1).blk t).view.emb (ix2 k q)) = V c main_arg4 (ix2 k q)
  refine congrArg _ (funext fun a => Fin.ext ?_)
  match a with
  | ⟨0, _⟩ => show win3_1.index t (0 : Fin 2) * 256 + 1 * k.val = k.val; omega
  | ⟨1, _⟩ => show win3_1.index t (1 : Fin 2) * 256 + 1 * q.val = q.val; omega

theorem flushed3_eq (V : (c : Dev nD) → (b : Ref sig .tc) → Buf (Elt Ideal) ((c : Thread nD τ).loc b)) (c : Dev nD) (t : Fin cfg3.N) :
    (dat3 (F := Ideal) V c).flushed 2 t
      = ((cfg3.win 2).blk t).view.read (Elt Ideal) (Cert.GWSpec.mm (n := 8192) (k := 256) (p := 256) (V c main_v5) (V c main_arg4)) := by
  show (cfg3.win 2).cut (grid3.coords t) ((dat3 V c).after 2 t) = _
  rw [after3_out]
  unfold prodBlock3
  rw [View.canon_unit_zero origin2]
  simp only [View.ld_unit_zero (S := S2048x256) origin2, View.ld_unit_zero (S := S256x256) origin2]
  obtain ⟨-, -, -, -, e4, e5⟩ := blockIdx3 t
  funext j
  show k3_pay1 (F := Ideal) (blockAt3 V c 0 t) (blockAt3 V c 1 t) j
    = Cert.GWSpec.mm (n := 8192) (k := 256) (p := 256) (V c main_v5) (V c main_arg4) (((cfg3.win 2).blk t).view.emb j)
  refine (k3_pay1_apply _ _ j).trans ?_
  unfold Cert.GWSpec.mm
  have h0 : ((((cfg3.win 2).blk t).view.emb j) 0).val = t.val * 2048 + (j 0).val := by
    show win3_2.index t (0 : Fin 2) * 2048 + 1 * (j 0).val = _; omega
  have h1 : (((cfg3.win 2).blk t).view.emb j) 1 = ⟨(j 1).val, (j 1).isLt⟩ := Fin.ext (by
    show win3_2.index t (1 : Fin 2) * 256 + 1 * (j 1).val = (j 1).val; omega)
  refine Finset.sum_congr rfl fun k _ => ?_
  rw [rows3_read V c t (j 0) k _ h0, weights3_read V c t k (j 1), h1]
  rfl

theorem mem_outBlock3 (t : Fin cfg3.N) (i : S8192x256.Idx) :
    i ∈ ((cfg3.win 2).blk t).view.set ↔ ∀ a : Fin 2, win3_2.index t a * S2048x256.size a ≤ (i a).val ∧ (i a).val < win3_2.index t a * S2048x256.size a + S2048x256.size a := by
  show i ∈ ((View.whole main_v6).slice (win3_2.rect t)).set ↔ _
  rw [View.set_slice_whole, Rect.mem_set_unit]
  exact Iff.rfl

theorem outBlocks3_cover (i : S8192x256.Idx) :
    ∃ t : Fin cfg3.N, (cfg3.win 2).flush t = true ∧ i ∈ ((cfg3.win 2).blk t).view.set := by
  have hi0 : (i 0).val < 8192 := (i 0).isLt
  have hi1 : (i 1).val < 256 := (i 1).isLt
  have hN : cfg3.N = 4 := N_3
  let t : Fin cfg3.N := ⟨(i 0).val / 2048, by omega⟩
  have ht : t.val = (i 0).val / 2048 := rfl
  obtain ⟨-, -, -, -, e4, e5⟩ := blockIdx3 t
  refine ⟨t, flush3_2 t, ?_⟩
  rw [mem_outBlock3]
  intro a
  match a with
  | ⟨0, _⟩ => show win3_2.index t (0 : Fin 2) * 2048 ≤ (i 0).val ∧ (i 0).val < win3_2.index t (0 : Fin 2) * 2048 + 2048; omega
  | ⟨1, _⟩ => show win3_2.index t (1 : Fin 2) * 256 ≤ (i 1).val ∧ (i 1).val < win3_2.index t (1 : Fin 2) * 256 + 256; omega

theorem final3 (V : (c : Dev nD) → (b : Ref sig .tc) → Buf (Elt Ideal) ((c : Thread nD τ).loc b)) (c : Dev nD) :
    (dat3 (F := Ideal) V c).arrAt 2 cfg3.N = Cert.GWSpec.mm (n := 8192) (k := 256) (p := 256) (V c main_v5) (V c main_arg4) :=
  (dat3 (F := Ideal) V c).arrAt_eq_of_cover 2 _ (fun t _ => flushed3_eq V c t) outBlocks3_cover

end Cert.KernelIdeal.GW

end
-- ==== Proof.KI.HostReads.lean ====
/-
  What the host operations ahead of the first region leave, read at an index: a row of ones, and the two filters as rows.
-/
import proofs.«113573_j27281632264453_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.IdealHost

noncomputable section

namespace Cert.KernelIdeal.GW

open Idealize.ShloMosaic Idealize.ShloMosaic.TcCoe Idealize.SL.Sem Idealize.ShloMosaic.StableHlo Idealize.ShloMosaic.ValueIdx
open Cert.KernelIdeal.Gen

variable (m : (ℓ : Loc nD τ sig) → Buf (Elt Ideal) ℓ)

theorem tail_ix2 {n : ℕ} (k : Fin n) : (fun a : Fin 1 => (ix2 (n0 := 1) (n1 := n) 0 k) a.succ) = ix1 k :=
  funext fun a => by match a with | ⟨0, _⟩ => rfl

theorem ones_row (c : Dev nD) (k : Fin 8192) :
    (Gen.V1 m c main_v0 : S1x8192.Idx → EReal) (ix2 0 k) = (1 : EReal) := by
  have e : (Gen.V1 m c main_v0 : S1x8192.Idx → EReal)
      = broadcastInDim S1x8192 ![] bcast_S_S1x8192 (constant (F := Ideal) S_ .f32 0x3F800000#32) := by
    dsimp only [Gen.V1, Gen.V0, Gen.hostOps0]; after_results <;> rfl
  rw [e]
  simp only [broadcastInDim, constant]
  exact Ideal.ofBits_one_f32

theorem filter1_row (c : Dev nD) (k : Fin 8192) :
    (Gen.V1 m c main_v1 : S1x8192.Idx → EReal) (ix2 0 k) = (m ((c : Thread nD τ).loc main_arg5) : S8192.Idx → EReal) (ix1 k) := by
  have e : (Gen.V1 m c main_v1 : S1x8192.Idx → EReal)
      = shapeCast S1x8192 (m ((c : Thread nD τ).loc main_arg5) : S8192.Idx → EReal) shapeCasts_S8192_S1x8192 := by
    dsimp only [Gen.V1, Gen.V0, Gen.hostOps0]; after_results <;> rfl
  rw [e]
  exact (shapeCast_addUnit_apply (d := ![8192]) _ _ (ix2 0 k)).trans (congrArg _ (tail_ix2 k))

theorem filter2_row (c : Dev nD) (k : Fin 8192) :
    (Gen.V1 m c main_v2 : S1x8192.Idx → EReal) (ix2 0 k) = (m ((c : Thread nD τ).loc main_arg6) : S8192.Idx → EReal) (ix1 k) := by
  have e : (Gen.V1 m c main_v2 : S1x8192.Idx → EReal)
      = shapeCast S1x8192 (m ((c : Thread nD τ).loc main_arg6) : S8192.Idx → EReal) shapeCasts_S8192_S1x8192 := by
    dsimp only [Gen.V1, Gen.V0, Gen.hostOps0]; after_results <;> rfl
  rw [e]
  exact (shapeCast_addUnit_apply (d := ![8192]) _ _ (ix2 0 k)).trans (congrArg _ (tail_ix2 k))

end Cert.KernelIdeal.GW

end
-- ==== Proof.Algebra.lean ====
/-
  Sums over a blocked contraction index, and the column scale by one.
-/
import proofs.«113573_j27281632264453_1_alg».proof.Proof.Spec
import Idealize.ShloMosaic.Lib.IdealHost
import Mathlib.Algebra.BigOperators.Fin
import Mathlib.Logic.Equiv.Fin.Basic

noncomputable section

namespace Cert.GWSpec

open Idealize.ShloMosaic Idealize.ShloMosaic.ValueIdx

abbrev blockIdx (b : Fin 8) (q : Fin 1024) : Fin 8192 := ⟨b.val * 1024 + q.val, by omega⟩

theorem sum_blocks (g : Fin 8192 → EReal) :
    ∑ k : Fin 8192, g k = ∑ b : Fin 8, ∑ q : Fin 1024, g ⟨b.val * 1024 + q.val, by omega⟩ := by
  have e := Equiv.sum_comp (finProdFinEquiv (m := 8) (n := 1024)) g
  rw [Fintype.sum_prod_type] at e
  rw [← e]
  refine Finset.sum_congr rfl fun b _ => Finset.sum_congr rfl fun q _ => congrArg g (Fin.ext ?_)
  show q.val + 1024 * b.val = b.val * 1024 + q.val
  omega

theorem fold_eq_sum_range (acc s : ℕ → EReal) (N : ℕ) (h0 : acc 0 = 0 + s 0)
    (hs : ∀ n, n + 1 < N → acc (n + 1) = acc n + s (n + 1)) :
    ∀ n, n < N → acc n = ∑ b ∈ Finset.range (n + 1), s b := by
  intro n
  induction n with
  | zero => intro _; rw [h0, zero_add, Finset.sum_range_one]
  | succ n ih =>
    intro hn
    rw [hs n hn, ih (by omega), Finset.sum_range_succ _ (n + 1)]

theorem fold_eq_sum (acc : ℕ → EReal) (s : ℕ → EReal) (h0 : acc 0 = 0 + s 0)
    (hs : ∀ n, n + 1 < 8 → acc (n + 1) = acc n + s (n + 1)) : acc 7 = ∑ b : Fin 8, s b.val := by
  rw [fold_eq_sum_range acc s 8 h0 hs 7 (by omega), ← Fin.sum_univ_eq_sum_range]

theorem fold_fin_eq_sum (acc s : Fin 8 → EReal) (h0 : acc 0 = 0 + s 0)
    (hs : ∀ (n : Fin 8) (h : n.val + 1 < 8), acc ⟨n.val + 1, h⟩ = acc n + s ⟨n.val + 1, h⟩) : acc 7 = ∑ b : Fin 8, s b := by
  have key := fold_eq_sum (fun n => if h : n < 8 then acc ⟨n, h⟩ else 0) (fun n => if h : n < 8 then s ⟨n, h⟩ else 0)
    (by simpa using h0)
    (fun n hn => by
      have hn' : n < 8 := by omega
      simp only [dif_pos hn, dif_pos hn']
      exact hs ⟨n, hn'⟩ hn)
  simp only [Fin.is_lt, dif_pos, Fin.eta] at key
  simpa using key

theorem mm_blocks (A : Mat 8192 8192) (B : Mat 8192 256) (i : (⟨2, ![8192, 256]⟩ : Shape).Idx) :
    mm A B i = ∑ b : Fin 8, ∑ q : Fin 1024,
      A (ix2 (n0 := 8192) (n1 := 8192) (i 0) ⟨b.val * 1024 + q.val, by omega⟩)
        * B (ix2 (n0 := 8192) (n1 := 256) ⟨b.val * 1024 + q.val, by omega⟩ (i 1)) :=
  sum_blocks fun j => A (ix2 (n0 := 8192) (n1 := 8192) (i 0) j) * B (ix2 (n0 := 8192) (n1 := 256) j (i 1))

theorem mm_eq_fold (A : Mat 8192 8192) (B : Mat 8192 256) (i : (⟨2, ![8192, 256]⟩ : Shape).Idx) (acc : ℕ → EReal)
    (s : ℕ → EReal)
    (hsum : ∀ b : Fin 8, s b.val = ∑ q : Fin 1024,
      A (ix2 (n0 := 8192) (n1 := 8192) (i 0) ⟨b.val * 1024 + q.val, by omega⟩)
        * B (ix2 (n0 := 8192) (n1 := 256) ⟨b.val * 1024 + q.val, by omega⟩ (i 1)))
    (h0 : acc 0 = 0 + s 0) (hs : ∀ n, n + 1 < 8 → acc (n + 1) = acc n + s (n + 1)) : acc 7 = mm A B i := by
  rw [fold_eq_sum acc s h0 hs, mm_blocks]
  exact Finset.sum_congr rfl fun b _ => hsum b

theorem colScale_apply {n k : ℕ} (U : Mat n k) (f : Vect k) (r : Fin n) (c : Fin k) :
    colScale U f (ix2 r c) = U (ix2 r c) * f (ix1 c) := rfl

theorem colScale_one {n k : ℕ} (U : Mat n k) : colScale U (fun _ => 1) = U :=
  funext fun i => mul_one (U i)

theorem colScale_ofBits_one {n k : ℕ} (U : Mat n k) :
    colScale U (fun _ => Ideal.ofBits .f32 0x3F800000#32) = U := by
  rw [Ideal.ofBits_one_f32]; exact colScale_one U

theorem mul_ofBits_one (x : EReal) : x * Ideal.ofBits .f32 0x3F800000#32 = x := by
  rw [Ideal.ofBits_one_f32, mul_one]

theorem mm_colScale_one (U : Mat 8192 8192) (B : Mat 8192 256) : mm (colScale U (fun _ => 1)) B = mm U B := by
  rw [colScale_one]

theorem posPart_apply {n p : ℕ} (A : Mat n p) (i : (⟨2, ![n, p]⟩ : Shape).Idx) : posPart A i = max (A i) 0 := rfl

theorem maximumf_zero (x : EReal) :
    FloatOps.maximumf (F := Ideal) (φ := .f32) x (FloatOps.ofBits (F := Ideal) .f32 0x00000000#32) = max x 0 := by
  show max x (Ideal.ofBits .f32 0x00000000#32) = max x 0
  rw [Ideal.ofBits_zero_f32]

end Cert.GWSpec

end
-- ==== Proof.KI.SpectralPayload.lean ====
/-
  One step of the blocked product, entry by entry, on the extended reals: acc + (U ⊙ f) · B. The accumulator starts from
  the zero block, and the first layer ends with the positive part.
-/
import proofs.«113573_j27281632264453_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«113573_j27281632264453_1_alg».proof.Proof.Matmul

noncomputable section

namespace Cert.KernelIdeal.GW

open Idealize.ShloMosaic Idealize.SL.Sem
open Cert.KernelIdeal Cert.KernelIdeal.Gen Idealize.ShloMosaic.ValueIdx Cert.GW

theorem blk_matmul_zero_apply (a : FVec Ideal S1024x1024 .bf16) (b : FVec Ideal S1024x256 .bf16) (r : Fin 1024) (c : Fin 256) :
    matmul dot_S1024x1024_S1024x256_S1024x256_1_0_0_1_n_n none a b (constant (F := Ideal) S1024x256 .f32 0x00000000#32) (ix2 r c)
      = ∑ q : Fin 1024, a (ix2 r q) * b (ix2 q c) :=
  matmul_plain_zero_apply none a b r c

theorem scaleRow_apply (f : Vec Ideal S1x1024 .f32) (r q : Fin 1024) :
    broadcastTo S1024x1024 f broadcasts_S1x1024_S1024x1024 (ix2 r q) = f (ix2 0 q) :=
  broadcastTo_apply f broadcasts_S1x1024_S1024x1024 (ix2 r q) (ix2 0 q) (fun a => match a with
    | ⟨0, _⟩ => by show 0 = if (1 : Nat) = 1 then 0 else r.val; rw [if_pos rfl]
    | ⟨1, _⟩ => by show q.val = if (1024 : Nat) = 1 then 0 else q.val; rw [if_neg (by decide)])

theorem zeroBlock_apply (r : Fin 1024) (c : Fin 256) :
    shapeCast S1024x256 (broadcast S1024x256 (Scalar.ofBits (F := Ideal) .f32 0x00000000#32)) shapeCasts_S1024x256_S1024x256 (ix2 r c) = (0 : EReal) := by
  rw [shapeCast_self]
  exact Ideal.ofBits_zero_f32

/-- Entry (r, c) of one accumulation step is acc r c + Σ_q (U r q · f q) · B q c. -/
theorem step_apply (x0 : Vec Ideal S1024x1024 .f32) (f : Vec Ideal S1x1024 .f32) (x1 : Vec Ideal S1024x256 .f32) (acc : Vec Ideal S1024x256 .f32)
    (r : Fin 1024) (c : Fin 256) :
    shapeCast S1024x256 (addf acc (matmul dot_S1024x1024_S1024x256_S1024x256_1_0_0_1_n_n none
        (truncf .bf16 (mulf x0 (broadcastTo S1024x1024 (shapeCast S1x1024 f shapeCasts_S1x1024_S1x1024) broadcasts_S1x1024_S1024x1024)) bitsLt_bf16_f32)
        (truncf .bf16 (shapeCast S1024x256 x1 shapeCasts_S1024x256_S1024x256) bitsLt_bf16_f32)
        (constant (F := Ideal) S1024x256 .f32 0x00000000#32))) shapeCasts_S1024x256_S1024x256 (ix2 r c)
      = acc (ix2 r c) + ∑ q : Fin 1024, (x0 (ix2 r q) * f (ix2 0 q)) * x1 (ix2 q c) := by
  rw [shapeCast_self, shapeCast_self, shapeCast_self]
  refine congrArg (acc (ix2 r c) + ·) ?_
  refine (blk_matmul_zero_apply _ _ r c).trans ?_
  refine Finset.sum_congr rfl fun q _ => ?_
  show (x0 (ix2 r q) * broadcastTo S1024x1024 f broadcasts_S1x1024_S1024x1024 (ix2 r q)) * x1 (ix2 q c) = _
  rw [scaleRow_apply]

theorem k1_pay1_apply (r : Fin 1024) (c : Fin 256) : k1_pay1 (F := Ideal) (ix2 r c) = 0 := by
  unfold k1_pay1; exact zeroBlock_apply r c
theorem k1_pay2_apply (x0 : Vec Ideal S1024x1024 .f32) (f : Vec Ideal S1x1024 .f32) (x1 : Vec Ideal S1024x256 .f32) (acc : Vec Ideal S1024x256 .f32)
    (r : Fin 1024) (c : Fin 256) :
    k1_pay2 x0 f x1 acc (ix2 r c) = acc (ix2 r c) + ∑ q : Fin 1024, (x0 (ix2 r q) * f (ix2 0 q)) * x1 (ix2 q c) := by
  unfold k1_pay2; exact step_apply x0 f x1 acc r c

theorem k2_pay1_apply (r : Fin 1024) (c : Fin 256) : k2_pay1 (F := Ideal) (ix2 r c) = 0 := by
  unfold k2_pay1; exact zeroBlock_apply r c
theorem k2_pay2_apply (x0 : Vec Ideal S1024x1024 .f32) (f : Vec Ideal S1x1024 .f32) (x1 : Vec Ideal S1024x256 .f32) (acc : Vec Ideal S1024x256 .f32)
    (r : Fin 1024) (c : Fin 256) :
    k2_pay2 x0 f x1 acc (ix2 r c) = acc (ix2 r c) + ∑ q : Fin 1024, (x0 (ix2 r q) * f (ix2 0 q)) * x1 (ix2 q c) := by
  unfold k2_pay2; exact step_apply x0 f x1 acc r c

theorem k2_pay3_apply (s : Vec Ideal S1024x256 .f32) (r : Fin 1024) (c : Fin 256) :
    k2_pay3 s (ix2 r c) = max (s (ix2 r c)) 0 := by
  unfold k2_pay3
  show max (s (ix2 r c)) (Scalar.ofBits (F := Ideal) .f32 0x00000000#32) = _
  exact congrArg (max (s (ix2 r c))) Ideal.ofBits_zero_f32

end Cert.KernelIdeal.GW

end
-- ==== Proof.KI.Spectral1Value.lean ====
/-
  What the first layer's inverse transform leaves in its result array, on the extended reals: the sum over 8192 contraction
  indices is the sum over the eight blocks of 1024, so the row blocks written back tile the whole product (U ⊙ f) · B.
-/
import proofs.«113573_j27281632264453_1_alg».proof.Proof.KI.Spectral1
import proofs.«113573_j27281632264453_1_alg».proof.Proof.KI.SpectralPayload
import proofs.«113573_j27281632264453_1_alg».proof.Proof.Algebra

noncomputable section

namespace Cert.KernelIdeal.GW

open Idealize.ShloMosaic Idealize.ShloMosaic.TcCoe Idealize.SL.Sem
open Idealize.ShloMosaic.Pipeline (Dat)
open Cert.KernelIdeal Cert.KernelIdeal.Gen Idealize.ShloMosaic.ValueIdx

variable {F : FTy → Type} [FloatOps F]
variable (V : (c : Dev nD) → (b : Ref sig .tc) → Buf (Elt F) ((c : Thread nD τ).loc b))

theorem idx1_facts : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = t.val % 8
    ∧ win1_3.index t (0 : Fin 2) = t.val / 8 ∧ win1_3.index t (1 : Fin 2) = 0 :=
  (by decide +kernel : ∀ t : Fin grid1.N, _)

abbrev Uarr1 (c : Dev nD) : Vec F S8192x8192 .f32 := V c main_arg2
abbrev Barr1 (c : Dev nD) : Vec F S8192x256 .f32 := V c main_v3
abbrev farr1 (c : Dev nD) : Vec F S1x8192 .f32 := V c main_v0
abbrev Ublk1 (c : Dev nD) (t : Fin cfg1.N) : Vec F S1024x1024 .f32 := iblk1 V c 0 t
abbrev Bblk1 (c : Dev nD) (t : Fin cfg1.N) : Vec F S1024x256 .f32 := iblk1 V c 1 t
abbrev fblk1 (c : Dev nD) (t : Fin cfg1.N) : Vec F S1x1024 .f32 := iblk1 V c 2 t

theorem Ublk1_apply (c : Dev nD) (t : Fin cfg1.N) (r q : Fin 1024) (x : Fin 8192) (y : Fin 8192)
    (hx : x.val = t.val / 8 * 1024 + r.val) (hy : y.val = t.val % 8 * 1024 + q.val) :
    Ublk1 V c t (ix2 r q) = Uarr1 V c (ix2 x y) := by
  obtain ⟨e0, e1, -⟩ := idx1_facts t
  show V c main_arg2 (((cfg1.win 0).blk t).view.emb (ix2 r q)) = V c main_arg2 (ix2 x y)
  refine congrArg (V c main_arg2) (funext fun a => Fin.ext ?_)
  match a with
  | ⟨0, _⟩ => show win1_0.index t (0 : Fin 2) * 1024 + 1 * r.val = x.val; rw [e0, hx]; omega
  | ⟨1, _⟩ => show win1_0.index t (1 : Fin 2) * 1024 + 1 * q.val = y.val; rw [e1, hy]; omega

theorem Bblk1_apply (c : Dev nD) (t : Fin cfg1.N) (q : Fin 1024) (j : Fin 256) (y : Fin 8192)
    (hy : y.val = t.val % 8 * 1024 + q.val) :
    Bblk1 V c t (ix2 q j) = Barr1 V c (ix2 y j) := by
  obtain ⟨-, -, e0, e1, -⟩ := idx1_facts t
  show V c main_v3 (((cfg1.win 1).blk t).view.emb (ix2 q j)) = V c main_v3 (ix2 y j)
  refine congrArg (V c main_v3) (funext fun a => Fin.ext ?_)
  match a with
  | ⟨0, _⟩ => show win1_1.index t (0 : Fin 2) * 1024 + 1 * q.val = y.val; rw [e0, hy]; omega
  | ⟨1, _⟩ => show win1_1.index t (1 : Fin 2) * 256 + 1 * j.val = j.val; rw [e1]; omega

theorem fblk1_apply (c : Dev nD) (t : Fin cfg1.N) (q : Fin 1024) (y : Fin 8192)
    (hy : y.val = t.val % 8 * 1024 + q.val) :
    fblk1 V c t (ix2 0 q) = farr1 V c (ix2 0 y) := by
  obtain ⟨-, -, -, -, e0, e1, -⟩ := idx1_facts t
  show V c main_v0 (((cfg1.win 2).blk t).view.emb (ix2 0 q)) = V c main_v0 (ix2 0 y)
  refine congrArg (V c main_v0) (funext fun a => Fin.ext ?_)
  match a with
  | ⟨0, _⟩ => show win1_2.index t (0 : Fin 2) * 1 + 1 * 0 = 0; rw [e0]
  | ⟨1, _⟩ => show win1_2.index t (1 : Fin 2) * 1024 + 1 * q.val = y.val; rw [e1, hy]; omega

section AtIdeal

variable (V : (c : Dev nD) → (b : Ref sig .tc) → Buf (Elt Ideal) ((c : Thread nD τ).loc b))

def pt1 (i n : Fin 8) : Fin cfg1.N := ⟨i.val * 8 + n.val, by rw [show cfg1.N = 64 from N_1]; omega⟩

theorem pt1_val (i n : Fin 8) : (pt1 i n).val = i.val * 8 + n.val := rfl

theorem sAt1_congr (c : Dev nD) {a b : ℕ} (h : a = b) (ha : a < cfg1.N) (hb : b < cfg1.N) :
    sAt1 V c a ha = sAt1 V c b hb := by subst h; rfl

def part1 (c : Dev nD) (x : Fin 8192) (j : Fin 256) (b : Fin 8) : EReal :=
  ∑ q : Fin 1024, (Uarr1 V c (ix2 x (Cert.GWSpec.blockIdx b q)) * farr1 V c (ix2 0 (Cert.GWSpec.blockIdx b q)))
    * Barr1 V c (ix2 (Cert.GWSpec.blockIdx b q) j)

theorem blkSum1_eq (c : Dev nD) (i n : Fin 8) (r : Fin 1024) (j : Fin 256) (x : Fin 8192) (hx : x.val = i.val * 1024 + r.val) :
    ∑ q : Fin 1024, (Ublk1 V c (pt1 i n) (ix2 r q) * fblk1 V c (pt1 i n) (ix2 0 q)) * Bblk1 V c (pt1 i n) (ix2 q j)
      = part1 V c x j n := by
  unfold part1
  have hd : (pt1 i n).val / 8 = i.val := by rw [pt1_val]; omega
  have hm : (pt1 i n).val % 8 = n.val := by rw [pt1_val]; omega
  refine Finset.sum_congr rfl fun q _ => ?_
  rw [Ublk1_apply V c (pt1 i n) r q x (Cert.GWSpec.blockIdx n q) (by rw [hd]; exact hx) (by rw [hm]),
    fblk1_apply V c (pt1 i n) q (Cert.GWSpec.blockIdx n q) (by rw [hm]),
    Bblk1_apply V c (pt1 i n) q j (Cert.GWSpec.blockIdx n q) (by rw [hm])]

def accAt1 (c : Dev nD) (i : Fin 8) (r : Fin 1024) (j : Fin 256) (n : Fin 8) : EReal :=
  sAt1 V c (pt1 i n).val (pt1 i n).isLt (ix2 r j)

theorem accAt1_zero (c : Dev nD) (i : Fin 8) (r : Fin 1024) (j : Fin 256) (x : Fin 8192) (hx : x.val = i.val * 1024 + r.val) :
    accAt1 V c i r j 0 = 0 + part1 V c x j 0 := by
  unfold accAt1
  have h0 : (pt1 i 0).val % 8 = 0 := by rw [pt1_val]; show (i.val * 8 + 0) % 8 = 0; omega
  refine (congrFun (sAt1_reset V c (pt1 i 0) h0) (ix2 r j)).trans ?_
  refine (k1_pay2_apply (Ublk1 V c (pt1 i 0)) (fblk1 V c (pt1 i 0)) (Bblk1 V c (pt1 i 0)) (k1_pay1 (F := Ideal)) r j).trans ?_
  rw [k1_pay1_apply, blkSum1_eq V c i 0 r j x hx]

theorem accAt1_succ (c : Dev nD) (i : Fin 8) (r : Fin 1024) (j : Fin 256) (x : Fin 8192) (hx : x.val = i.val * 1024 + r.val)
    (n : Fin 8) (h : n.val + 1 < 8) :
    accAt1 V c i r j ⟨n.val + 1, h⟩ = accAt1 V c i r j n + part1 V c x j ⟨n.val + 1, h⟩ := by
  unfold accAt1
  have hne : ¬(pt1 i ⟨n.val + 1, h⟩).val % 8 = 0 := by rw [pt1_val]; show ¬(i.val * 8 + (n.val + 1)) % 8 = 0; omega
  refine (congrFun (sAt1_step V c (pt1 i ⟨n.val + 1, h⟩) hne) (ix2 r j)).trans ?_
  refine (k1_pay2_apply (Ublk1 V c (pt1 i ⟨n.val + 1, h⟩)) (fblk1 V c (pt1 i ⟨n.val + 1, h⟩)) (Bblk1 V c (pt1 i ⟨n.val + 1, h⟩))
    (sAt1 V c ((pt1 i ⟨n.val + 1, h⟩).val - 1) (Nat.lt_of_le_of_lt (Nat.sub_le _ _) (pt1 i ⟨n.val + 1, h⟩).isLt)) r j).trans ?_
  rw [blkSum1_eq V c i ⟨n.val + 1, h⟩ r j x hx]
  refine congrArg (· + part1 V c x j ⟨n.val + 1, h⟩) ?_
  exact congrFun (sAt1_congr V c (by rw [pt1_val, pt1_val]; show i.val * 8 + (n.val + 1) - 1 = i.val * 8 + n.val; omega) _ _) (ix2 r j)

/-- After the eighth step of a row block the accumulator holds the product's entry. -/
theorem accAt1_last (c : Dev nD) (i : Fin 8) (r : Fin 1024) (j : Fin 256) (x : Fin 8192) (hx : x.val = i.val * 1024 + r.val) :
    accAt1 V c i r j 7
      = Cert.GWSpec.mm (n := 8192) (k := 8192) (p := 256)
          (Cert.GWSpec.colScale (V c main_arg2) (fun i => V c main_v0 (ix2 0 (i 0)))) (V c main_v3) (ix2 x j) := by
  rw [Cert.GWSpec.mm_blocks]
  refine (Cert.GWSpec.fold_fin_eq_sum (accAt1 V c i r j) (part1 V c x j) (accAt1_zero V c i r j x hx)
    (fun n h => accAt1_succ V c i r j x hx n h)).trans ?_
  exact Finset.sum_congr rfl fun b _ => Finset.sum_congr rfl fun q _ => rfl

end AtIdeal

section Final

variable (V : (c : Dev nD) → (b : Ref sig .tc) → Buf (Elt Ideal) ((c : Thread nD τ).loc b))

def act1 (x : EReal) : EReal := x

theorem flushVal1_apply (s : Vec Ideal S1024x256 .f32) (r : Fin 1024) (c : Fin 256) :
    flushVal1 (F := Ideal) s (ix2 r c) = act1 (s (ix2 r c)) := rfl

abbrev G1 (c : Dev nD) : Buf (Elt Ideal) ((c : Thread nD τ).loc main_v4) :=
  fun i => act1 (Cert.GWSpec.mm (n := 8192) (k := 8192) (p := 256)
    (Cert.GWSpec.colScale (V c main_arg2) (fun i => V c main_v0 (ix2 0 (i 0)))) (V c main_v3) i)

theorem sAt1_last_apply (c : Dev nD) (t : Fin cfg1.N) (h7 : t.val % 8 = 7) (r : Fin 1024) (j : Fin 256) (x : Fin 8192)
    (hx : x.val = t.val / 8 * 1024 + r.val) :
    sAt1 V c t.val t.isLt (ix2 r j)
      = Cert.GWSpec.mm (n := 8192) (k := 8192) (p := 256)
          (Cert.GWSpec.colScale (V c main_arg2) (fun i => V c main_v0 (ix2 0 (i 0)))) (V c main_v3) (ix2 x j) := by
  have hN : cfg1.N = 64 := N_1
  have ht := t.isLt
  have key := accAt1_last V c ⟨t.val / 8, by omega⟩ r j x hx
  unfold accAt1 at key
  refine (congrFun (sAt1_congr V c ?_ t.isLt _) (ix2 r j)).trans key
  rw [pt1_val]
  show t.val = t.val / 8 * 8 + 7
  omega

theorem flushed1_eq (c : Dev nD) (t : Fin cfg1.N) (hf : (cfg1.win 3).flush t = true) :
    (dat1 V c).flushed 3 t = ((cfg1.win 3).blk t).view.read (Elt Ideal) (G1 V c) := by
  have h7 : t.val % 8 = 7 := (flush1_3 t).mp hf
  have hN : cfg1.N = 64 := N_1
  have ht := t.isLt
  obtain ⟨-, -, -, -, -, -, e0, e1⟩ := idx1_facts t
  show (cfg1.win 3).cut (grid1.coords t) ((dat1 V c).after 3 t) = _
  rw [after1_3]
  funext y
  obtain ⟨r, j, rfl⟩ : ∃ (r : Fin 1024) (j : Fin 256), y = ix2 r j := ⟨y 0, y 1, eq_ix2 y⟩
  have hemb : ((cfg1.win 3).blk t).view.emb (ix2 r j) = ix2 (n0 := 8192) (n1 := 256) ⟨t.val / 8 * 1024 + r.val, by omega⟩ j :=
    funext fun a => Fin.ext (by
      match a with
      | ⟨0, _⟩ => show win1_3.index t (0 : Fin 2) * 1024 + 1 * r.val = t.val / 8 * 1024 + r.val; rw [e0]; omega
      | ⟨1, _⟩ => show win1_3.index t (1 : Fin 2) * 256 + 1 * j.val = j.val; rw [e1]; omega)
  show flushVal1 (sAt1 V c t.val t.isLt) (ix2 r j) = G1 V c (((cfg1.win 3).blk t).view.emb (ix2 r j))
  rw [hemb, flushVal1_apply]
  exact congrArg act1 (sAt1_last_apply V c t h7 r j _ rfl)

theorem mem_blk1 (t : Fin cfg1.N) (i : S8192x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v4).slice (win1_3.rect t)).set ↔ _
  rw [View.set_slice_whole, Rect.mem_set_unit]
  exact Iff.rfl

/-- The row blocks written back cover the result array. -/
theorem final1_act (c : Dev nD) :
    (dat1 V c).arrAt 3 cfg1.N = fun i => act1 (Cert.GWSpec.mm (n := 8192) (k := 8192) (p := 256)
      (Cert.GWSpec.colScale (V c main_arg2) (fun i => V c main_v0 (ix2 0 (i 0)))) (V c main_v3) i) :=
  (dat1 V c).arrAt_eq_of_cover 3 (G1 V c) (flushed1_eq V c) fun i => by
    have hi0 : (i 0).val < 8192 := (i 0).isLt
    have hi1 : (i 1).val < 256 := (i 1).isLt
    have hv : (pt1 ⟨(i 0).val / 1024, by omega⟩ 7).val = (i 0).val / 1024 * 8 + 7 := rfl
    obtain ⟨-, -, -, -, -, -, e0, e1⟩ := idx1_facts (pt1 ⟨(i 0).val / 1024, by omega⟩ 7)
    refine ⟨pt1 ⟨(i 0).val / 1024, by omega⟩ 7, (flush1_3 _).mpr (by rw [hv]; omega), ?_⟩
    rw [mem_blk1]
    intro a
    match a with
    | ⟨0, _⟩ =>
      show win1_3.index (pt1 ⟨(i 0).val / 1024, by omega⟩ 7) (0 : Fin 2) * 1024 ≤ (i 0).val ∧ (i 0).val < win1_3.index (pt1 ⟨(i 0).val / 1024, by omega⟩ 7) (0 : Fin 2) * 1024 + 1024
      rw [e0, hv]; omega
    | ⟨1, _⟩ =>
      show win1_3.index (pt1 ⟨(i 0).val / 1024, by omega⟩ 7) (1 : Fin 2) * 256 ≤ (i 1).val ∧ (i 1).val < win1_3.index (pt1 ⟨(i 0).val / 1024, by omega⟩ 7) (1 : Fin 2) * 256 + 256
      rw [e1]; omega

theorem final1 (c : Dev nD) :
    (dat1 V c).arrAt 3 cfg1.N = Cert.GWSpec.mm (n := 8192) (k := 8192) (p := 256)
      (Cert.GWSpec.colScale (V c main_arg2) (fun i => V c main_v0 (ix2 0 (i 0)))) (V c main_v3) :=
  final1_act V c

end Final

end Cert.KernelIdeal.GW

end
-- ==== Proof.KI.Spectral2Value.lean ====
/-
  What the first layer's filtered forward transform leaves in its result array, on the extended reals: the sum over 8192 contraction
  indices is the sum over the eight blocks of 1024, so the row blocks written back tile the whole product (U ⊙ f) · B, of which the positive part is written back.
-/
import proofs.«113573_j27281632264453_1_alg».proof.Proof.KI.Spectral2
import proofs.«113573_j27281632264453_1_alg».proof.Proof.KI.SpectralPayload
import proofs.«113573_j27281632264453_1_alg».proof.Proof.Algebra

noncomputable section

namespace Cert.KernelIdeal.GW

open Idealize.ShloMosaic Idealize.ShloMosaic.TcCoe Idealize.SL.Sem
open Idealize.ShloMosaic.Pipeline (Dat)
open Cert.KernelIdeal Cert.KernelIdeal.Gen Idealize.ShloMosaic.ValueIdx

variable {F : FTy → Type} [FloatOps F]
variable (V : (c : Dev nD) → (b : Ref sig .tc) → Buf (Elt F) ((c : Thread nD τ).loc b))

theorem idx2_facts : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = 0 ∧ win2_2.index t (1 : Fin 2) = t.val % 8
    ∧ win2_3.index t (0 : Fin 2) = t.val / 8 ∧ win2_3.index t (1 : Fin 2) = 0 :=
  (by decide +kernel : ∀ t : Fin grid2.N, _)

abbrev Uarr2 (c : Dev nD) : Vec F S8192x8192 .f32 := V c main_arg1
abbrev Barr2 (c : Dev nD) : Vec F S8192x256 .f32 := V c main_v4
abbrev farr2 (c : Dev nD) : Vec F S1x8192 .f32 := V c main_v1
abbrev Ublk2 (c : Dev nD) (t : Fin cfg2.N) : Vec F S1024x1024 .f32 := iblk2 V c 0 t
abbrev Bblk2 (c : Dev nD) (t : Fin cfg2.N) : Vec F S1024x256 .f32 := iblk2 V c 1 t
abbrev fblk2 (c : Dev nD) (t : Fin cfg2.N) : Vec F S1x1024 .f32 := iblk2 V c 2 t

theorem Ublk2_apply (c : Dev nD) (t : Fin cfg2.N) (r q : Fin 1024) (x : Fin 8192) (y : Fin 8192)
    (hx : x.val = t.val / 8 * 1024 + r.val) (hy : y.val = t.val % 8 * 1024 + q.val) :
    Ublk2 V c t (ix2 r q) = Uarr2 V c (ix2 x y) := by
  obtain ⟨e0, e1, -⟩ := idx2_facts t
  show V c main_arg1 (((cfg2.win 0).blk t).view.emb (ix2 r q)) = V c main_arg1 (ix2 x y)
  refine congrArg (V c main_arg1) (funext fun a => Fin.ext ?_)
  match a with
  | ⟨0, _⟩ => show win2_0.index t (0 : Fin 2) * 1024 + 1 * r.val = x.val; rw [e0, hx]; omega
  | ⟨1, _⟩ => show win2_0.index t (1 : Fin 2) * 1024 + 1 * q.val = y.val; rw [e1, hy]; omega

theorem Bblk2_apply (c : Dev nD) (t : Fin cfg2.N) (q : Fin 1024) (j : Fin 256) (y : Fin 8192)
    (hy : y.val = t.val % 8 * 1024 + q.val) :
    Bblk2 V c t (ix2 q j) = Barr2 V c (ix2 y j) := by
  obtain ⟨-, -, e0, e1, -⟩ := idx2_facts t
  show V c main_v4 (((cfg2.win 1).blk t).view.emb (ix2 q j)) = V c main_v4 (ix2 y j)
  refine congrArg (V c main_v4) (funext fun a => Fin.ext ?_)
  match a with
  | ⟨0, _⟩ => show win2_1.index t (0 : Fin 2) * 1024 + 1 * q.val = y.val; rw [e0, hy]; omega
  | ⟨1, _⟩ => show win2_1.index t (1 : Fin 2) * 256 + 1 * j.val = j.val; rw [e1]; omega

theorem fblk2_apply (c : Dev nD) (t : Fin cfg2.N) (q : Fin 1024) (y : Fin 8192)
    (hy : y.val = t.val % 8 * 1024 + q.val) :
    fblk2 V c t (ix2 0 q) = farr2 V c (ix2 0 y) := by
  obtain ⟨-, -, -, -, e0, e1, -⟩ := idx2_facts t
  show V c main_v1 (((cfg2.win 2).blk t).view.emb (ix2 0 q)) = V c main_v1 (ix2 0 y)
  refine congrArg (V c main_v1) (funext fun a => Fin.ext ?_)
  match a with
  | ⟨0, _⟩ => show win2_2.index t (0 : Fin 2) * 1 + 1 * 0 = 0; rw [e0]
  | ⟨1, _⟩ => show win2_2.index t (1 : Fin 2) * 1024 + 1 * q.val = y.val; rw [e1, hy]; omega

section AtIdeal

variable (V : (c : Dev nD) → (b : Ref sig .tc) → Buf (Elt Ideal) ((c : Thread nD τ).loc b))

def pt2 (i n : Fin 8) : Fin cfg2.N := ⟨i.val * 8 + n.val, by rw [show cfg2.N = 64 from N_2]; omega⟩

theorem pt2_val (i n : Fin 8) : (pt2 i n).val = i.val * 8 + n.val := rfl

theorem sAt2_congr (c : Dev nD) {a b : ℕ} (h : a = b) (ha : a < cfg2.N) (hb : b < cfg2.N) :
    sAt2 V c a ha = sAt2 V c b hb := by subst h; rfl

def part2 (c : Dev nD) (x : Fin 8192) (j : Fin 256) (b : Fin 8) : EReal :=
  ∑ q : Fin 1024, (Uarr2 V c (ix2 x (Cert.GWSpec.blockIdx b q)) * farr2 V c (ix2 0 (Cert.GWSpec.blockIdx b q)))
    * Barr2 V c (ix2 (Cert.GWSpec.blockIdx b q) j)

theorem blkSum2_eq (c : Dev nD) (i n : Fin 8) (r : Fin 1024) (j : Fin 256) (x : Fin 8192) (hx : x.val = i.val * 1024 + r.val) :
    ∑ q : Fin 1024, (Ublk2 V c (pt2 i n) (ix2 r q) * fblk2 V c (pt2 i n) (ix2 0 q)) * Bblk2 V c (pt2 i n) (ix2 q j)
      = part2 V c x j n := by
  unfold part2
  have hd : (pt2 i n).val / 8 = i.val := by rw [pt2_val]; omega
  have hm : (pt2 i n).val % 8 = n.val := by rw [pt2_val]; omega
  refine Finset.sum_congr rfl fun q _ => ?_
  rw [Ublk2_apply V c (pt2 i n) r q x (Cert.GWSpec.blockIdx n q) (by rw [hd]; exact hx) (by rw [hm]),
    fblk2_apply V c (pt2 i n) q (Cert.GWSpec.blockIdx n q) (by rw [hm]),
    Bblk2_apply V c (pt2 i n) q j (Cert.GWSpec.blockIdx n q) (by rw [hm])]

def accAt2 (c : Dev nD) (i : Fin 8) (r : Fin 1024) (j : Fin 256) (n : Fin 8) : EReal :=
  sAt2 V c (pt2 i n).val (pt2 i n).isLt (ix2 r j)

theorem accAt2_zero (c : Dev nD) (i : Fin 8) (r : Fin 1024) (j : Fin 256) (x : Fin 8192) (hx : x.val = i.val * 1024 + r.val) :
    accAt2 V c i r j 0 = 0 + part2 V c x j 0 := by
  unfold accAt2
  have h0 : (pt2 i 0).val % 8 = 0 := by rw [pt2_val]; show (i.val * 8 + 0) % 8 = 0; omega
  refine (congrFun (sAt2_reset V c (pt2 i 0) h0) (ix2 r j)).trans ?_
  refine (k2_pay2_apply (Ublk2 V c (pt2 i 0)) (fblk2 V c (pt2 i 0)) (Bblk2 V c (pt2 i 0)) (k2_pay1 (F := Ideal)) r j).trans ?_
  rw [k2_pay1_apply, blkSum2_eq V c i 0 r j x hx]

theorem accAt2_succ (c : Dev nD) (i : Fin 8) (r : Fin 1024) (j : Fin 256) (x : Fin 8192) (hx : x.val = i.val * 1024 + r.val)
    (n : Fin 8) (h : n.val + 1 < 8) :
    accAt2 V c i r j ⟨n.val + 1, h⟩ = accAt2 V c i r j n + part2 V c x j ⟨n.val + 1, h⟩ := by
  unfold accAt2
  have hne : ¬(pt2 i ⟨n.val + 1, h⟩).val % 8 = 0 := by rw [pt2_val]; show ¬(i.val * 8 + (n.val + 1)) % 8 = 0; omega
  refine (congrFun (sAt2_step V c (pt2 i ⟨n.val + 1, h⟩) hne) (ix2 r j)).trans ?_
  refine (k2_pay2_apply (Ublk2 V c (pt2 i ⟨n.val + 1, h⟩)) (fblk2 V c (pt2 i ⟨n.val + 1, h⟩)) (Bblk2 V c (pt2 i ⟨n.val + 1, h⟩))
    (sAt2 V c ((pt2 i ⟨n.val + 1, h⟩).val - 1) (Nat.lt_of_le_of_lt (Nat.sub_le _ _) (pt2 i ⟨n.val + 1, h⟩).isLt)) r j).trans ?_
  rw [blkSum2_eq V c i ⟨n.val + 1, h⟩ r j x hx]
  refine congrArg (· + part2 V c x j ⟨n.val + 1, h⟩) ?_
  exact congrFun (sAt2_congr V c (by rw [pt2_val, pt2_val]; show i.val * 8 + (n.val + 1) - 1 = i.val * 8 + n.val; omega) _ _) (ix2 r j)

/-- After the eighth step of a row block the accumulator holds the product's entry. -/
theorem accAt2_last (c : Dev nD) (i : Fin 8) (r : Fin 1024) (j : Fin 256) (x : Fin 8192) (hx : x.val = i.val * 1024 + r.val) :
    accAt2 V c i r j 7
      = Cert.GWSpec.mm (n := 8192) (k := 8192) (p := 256)
          (Cert.GWSpec.colScale (V c main_arg1) (fun i => V c main_v1 (ix2 0 (i 0)))) (V c main_v4) (ix2 x j) := by
  rw [Cert.GWSpec.mm_blocks]
  refine (Cert.GWSpec.fold_fin_eq_sum (accAt2 V c i r j) (part2 V c x j) (accAt2_zero V c i r j x hx)
    (fun n h => accAt2_succ V c i r j x hx n h)).trans ?_
  exact Finset.sum_congr rfl fun b _ => Finset.sum_congr rfl fun q _ => rfl

end AtIdeal

section Final

variable (V : (c : Dev nD) → (b : Ref sig .tc) → Buf (Elt Ideal) ((c : Thread nD τ).loc b))

def act2 (x : EReal) : EReal := max x 0

theorem flushVal2_apply (s : Vec Ideal S1024x256 .f32) (r : Fin 1024) (c : Fin 256) :
    flushVal2 (F := Ideal) s (ix2 r c) = act2 (s (ix2 r c)) := k2_pay3_apply s r c

abbrev G2 (c : Dev nD) : Buf (Elt Ideal) ((c : Thread nD τ).loc main_v5) :=
  fun i => act2 (Cert.GWSpec.mm (n := 8192) (k := 8192) (p := 256)
    (Cert.GWSpec.colScale (V c main_arg1) (fun i => V c main_v1 (ix2 0 (i 0)))) (V c main_v4) i)

theorem sAt2_last_apply (c : Dev nD) (t : Fin cfg2.N) (h7 : t.val % 8 = 7) (r : Fin 1024) (j : Fin 256) (x : Fin 8192)
    (hx : x.val = t.val / 8 * 1024 + r.val) :
    sAt2 V c t.val t.isLt (ix2 r j)
      = Cert.GWSpec.mm (n := 8192) (k := 8192) (p := 256)
          (Cert.GWSpec.colScale (V c main_arg1) (fun i => V c main_v1 (ix2 0 (i 0)))) (V c main_v4) (ix2 x j) := by
  have hN : cfg2.N = 64 := N_2
  have ht := t.isLt
  have key := accAt2_last V c ⟨t.val / 8, by omega⟩ r j x hx
  unfold accAt2 at key
  refine (congrFun (sAt2_congr V c ?_ t.isLt _) (ix2 r j)).trans key
  rw [pt2_val]
  show t.val = t.val / 8 * 8 + 7
  omega

theorem flushed2_eq (c : Dev nD) (t : Fin cfg2.N) (hf : (cfg2.win 3).flush t = true) :
    (dat2 V c).flushed 3 t = ((cfg2.win 3).blk t).view.read (Elt Ideal) (G2 V c) := by
  have h7 : t.val % 8 = 7 := (flush2_3 t).mp hf
  have hN : cfg2.N = 64 := N_2
  have ht := t.isLt
  obtain ⟨-, -, -, -, -, -, e0, e1⟩ := idx2_facts t
  show (cfg2.win 3).cut (grid2.coords t) ((dat2 V c).after 3 t) = _
  rw [after2_3]
  funext y
  obtain ⟨r, j, rfl⟩ : ∃ (r : Fin 1024) (j : Fin 256), y = ix2 r j := ⟨y 0, y 1, eq_ix2 y⟩
  have hemb : ((cfg2.win 3).blk t).view.emb (ix2 r j) = ix2 (n0 := 8192) (n1 := 256) ⟨t.val / 8 * 1024 + r.val, by omega⟩ j :=
    funext fun a => Fin.ext (by
      match a with
      | ⟨0, _⟩ => show win2_3.index t (0 : Fin 2) * 1024 + 1 * r.val = t.val / 8 * 1024 + r.val; rw [e0]; omega
      | ⟨1, _⟩ => show win2_3.index t (1 : Fin 2) * 256 + 1 * j.val = j.val; rw [e1]; omega)
  show flushVal2 (sAt2 V c t.val t.isLt) (ix2 r j) = G2 V c (((cfg2.win 3).blk t).view.emb (ix2 r j))
  rw [hemb, flushVal2_apply]
  exact congrArg act2 (sAt2_last_apply V c t h7 r j _ rfl)

theorem mem_blk2 (t : Fin cfg2.N) (i : S8192x256.Idx) :
    i ∈ ((cfg2.win 3).blk t).view.set ↔ ∀ a : Fin 2, win2_3.index t a * S1024x256.size a ≤ (i a).val ∧ (i a).val < win2_3.index t a * S1024x256.size a + S1024x256.size a := by
  show i ∈ ((View.whole main_v5).slice (win2_3.rect t)).set ↔ _
  rw [View.set_slice_whole, Rect.mem_set_unit]
  exact Iff.rfl

/-- The row blocks written back cover the result array. -/
theorem final2_act (c : Dev nD) :
    (dat2 V c).arrAt 3 cfg2.N = fun i => act2 (Cert.GWSpec.mm (n := 8192) (k := 8192) (p := 256)
      (Cert.GWSpec.colScale (V c main_arg1) (fun i => V c main_v1 (ix2 0 (i 0)))) (V c main_v4) i) :=
  (dat2 V c).arrAt_eq_of_cover 3 (G2 V c) (flushed2_eq V c) fun i => by
    have hi0 : (i 0).val < 8192 := (i 0).isLt
    have hi1 : (i 1).val < 256 := (i 1).isLt
    have hv : (pt2 ⟨(i 0).val / 1024, by omega⟩ 7).val = (i 0).val / 1024 * 8 + 7 := rfl
    obtain ⟨-, -, -, -, -, -, e0, e1⟩ := idx2_facts (pt2 ⟨(i 0).val / 1024, by omega⟩ 7)
    refine ⟨pt2 ⟨(i 0).val / 1024, by omega⟩ 7, (flush2_3 _).mpr (by rw [hv]; omega), ?_⟩
    rw [mem_blk2]
    intro a
    match a with
    | ⟨0, _⟩ =>
      show win2_3.index (pt2 ⟨(i 0).val / 1024, by omega⟩ 7) (0 : Fin 2) * 1024 ≤ (i 0).val ∧ (i 0).val < win2_3.index (pt2 ⟨(i 0).val / 1024, by omega⟩ 7) (0 : Fin 2) * 1024 + 1024
      rw [e0, hv]; omega
    | ⟨1, _⟩ =>
      show win2_3.index (pt2 ⟨(i 0).val / 1024, by omega⟩ 7) (1 : Fin 2) * 256 ≤ (i 1).val ∧ (i 1).val < win2_3.index (pt2 ⟨(i 0).val / 1024, by omega⟩ 7) (1 : Fin 2) * 256 + 256
      rw [e1]; omega

theorem final2 (c : Dev nD) :
    (dat2 V c).arrAt 3 cfg2.N = Cert.GWSpec.posPart (Cert.GWSpec.mm (n := 8192) (k := 8192) (p := 256)
      (Cert.GWSpec.colScale (V c main_arg1) (fun i => V c main_v1 (ix2 0 (i 0)))) (V c main_v4)) :=
  final2_act V c

end Final

end Cert.KernelIdeal.GW

end
-- ==== Proof.KI.Spectral4Value.lean ====
/-
  What the second layer's inverse transform leaves in its result array, on the extended reals: the sum over 8192 contraction
  indices is the sum over the eight blocks of 1024, so the row blocks written back tile the whole product (U ⊙ f) · B.
-/
import proofs.«113573_j27281632264453_1_alg».proof.Proof.KI.Spectral4
import proofs.«113573_j27281632264453_1_alg».proof.Proof.KI.SpectralPayload
import proofs.«113573_j27281632264453_1_alg».proof.Proof.Algebra

noncomputable section

namespace Cert.KernelIdeal.GW

open Idealize.ShloMosaic Idealize.ShloMosaic.TcCoe Idealize.SL.Sem
open Idealize.ShloMosaic.Pipeline (Dat)
open Cert.KernelIdeal Cert.KernelIdeal.Gen Idealize.ShloMosaic.ValueIdx

variable {F : FTy → Type} [FloatOps F]
variable (V : (c : Dev nD) → (b : Ref sig .tc) → Buf (Elt F) ((c : Thread nD τ).loc b))

theorem idx4_facts : ∀ t : Fin cfg4.N,
    win4_0.index t (0 : Fin 2) = t.val / 8 ∧ win4_0.index t (1 : Fin 2) = t.val % 8
    ∧ win4_1.index t (0 : Fin 2) = t.val % 8 ∧ win4_1.index t (1 : Fin 2) = 0
    ∧ win4_2.index t (0 : Fin 2) = 0 ∧ win4_2.index t (1 : Fin 2) = t.val % 8
    ∧ win4_3.index t (0 : Fin 2) = t.val / 8 ∧ win4_3.index t (1 : Fin 2) = 0 :=
  (by decide +kernel : ∀ t : Fin grid4.N, _)

abbrev Uarr4 (c : Dev nD) : Vec F S8192x8192 .f32 := V c main_arg2
abbrev Barr4 (c : Dev nD) : Vec F S8192x256 .f32 := V c main_v6
abbrev farr4 (c : Dev nD) : Vec F S1x8192 .f32 := V c main_v0
abbrev Ublk4 (c : Dev nD) (t : Fin cfg4.N) : Vec F S1024x1024 .f32 := iblk4 V c 0 t
abbrev Bblk4 (c : Dev nD) (t : Fin cfg4.N) : Vec F S1024x256 .f32 := iblk4 V c 1 t
abbrev fblk4 (c : Dev nD) (t : Fin cfg4.N) : Vec F S1x1024 .f32 := iblk4 V c 2 t

theorem Ublk4_apply (c : Dev nD) (t : Fin cfg4.N) (r q : Fin 1024) (x : Fin 8192) (y : Fin 8192)
    (hx : x.val = t.val / 8 * 1024 + r.val) (hy : y.val = t.val % 8 * 1024 + q.val) :
    Ublk4 V c t (ix2 r q) = Uarr4 V c (ix2 x y) := by
  obtain ⟨e0, e1, -⟩ := idx4_facts t
  show V c main_arg2 (((cfg4.win 0).blk t).view.emb (ix2 r q)) = V c main_arg2 (ix2 x y)
  refine congrArg (V c main_arg2) (funext fun a => Fin.ext ?_)
  match a with
  | ⟨0, _⟩ => show win4_0.index t (0 : Fin 2) * 1024 + 1 * r.val = x.val; rw [e0, hx]; omega
  | ⟨1, _⟩ => show win4_0.index t (1 : Fin 2) * 1024 + 1 * q.val = y.val; rw [e1, hy]; omega

theorem Bblk4_apply (c : Dev nD) (t : Fin cfg4.N) (q : Fin 1024) (j : Fin 256) (y : Fin 8192)
    (hy : y.val = t.val % 8 * 1024 + q.val) :
    Bblk4 V c t (ix2 q j) = Barr4 V c (ix2 y j) := by
  obtain ⟨-, -, e0, e1, -⟩ := idx4_facts t
  show V c main_v6 (((cfg4.win 1).blk t).view.emb (ix2 q j)) = V c main_v6 (ix2 y j)
  refine congrArg (V c main_v6) (funext fun a => Fin.ext ?_)
  match a with
  | ⟨0, _⟩ => show win4_1.index t (0 : Fin 2) * 1024 + 1 * q.val = y.val; rw [e0, hy]; omega
  | ⟨1, _⟩ => show win4_1.index t (1 : Fin 2) * 256 + 1 * j.val = j.val; rw [e1]; omega

theorem fblk4_apply (c : Dev nD) (t : Fin cfg4.N) (q : Fin 1024) (y : Fin 8192)
    (hy : y.val = t.val % 8 * 1024 + q.val) :
    fblk4 V c t (ix2 0 q) = farr4 V c (ix2 0 y) := by
  obtain ⟨-, -, -, -, e0, e1, -⟩ := idx4_facts t
  show V c main_v0 (((cfg4.win 2).blk t).view.emb (ix2 0 q)) = V c main_v0 (ix2 0 y)
  refine congrArg (V c main_v0) (funext fun a => Fin.ext ?_)
  match a with
  | ⟨0, _⟩ => show win4_2.index t (0 : Fin 2) * 1 + 1 * 0 = 0; rw [e0]
  | ⟨1, _⟩ => show win4_2.index t (1 : Fin 2) * 1024 + 1 * q.val = y.val; rw [e1, hy]; omega

section AtIdeal

variable (V : (c : Dev nD) → (b : Ref sig .tc) → Buf (Elt Ideal) ((c : Thread nD τ).loc b))

def pt4 (i n : Fin 8) : Fin cfg4.N := ⟨i.val * 8 + n.val, by rw [show cfg4.N = 64 from N_4]; omega⟩

theorem pt4_val (i n : Fin 8) : (pt4 i n).val = i.val * 8 + n.val := rfl

theorem sAt4_congr (c : Dev nD) {a b : ℕ} (h : a = b) (ha : a < cfg4.N) (hb : b < cfg4.N) :
    sAt4 V c a ha = sAt4 V c b hb := by subst h; rfl

def part4 (c : Dev nD) (x : Fin 8192) (j : Fin 256) (b : Fin 8) : EReal :=
  ∑ q : Fin 1024, (Uarr4 V c (ix2 x (Cert.GWSpec.blockIdx b q)) * farr4 V c (ix2 0 (Cert.GWSpec.blockIdx b q)))
    * Barr4 V c (ix2 (Cert.GWSpec.blockIdx b q) j)

theorem blkSum4_eq (c : Dev nD) (i n : Fin 8) (r : Fin 1024) (j : Fin 256) (x : Fin 8192) (hx : x.val = i.val * 1024 + r.val) :
    ∑ q : Fin 1024, (Ublk4 V c (pt4 i n) (ix2 r q) * fblk4 V c (pt4 i n) (ix2 0 q)) * Bblk4 V c (pt4 i n) (ix2 q j)
      = part4 V c x j n := by
  unfold part4
  have hd : (pt4 i n).val / 8 = i.val := by rw [pt4_val]; omega
  have hm : (pt4 i n).val % 8 = n.val := by rw [pt4_val]; omega
  refine Finset.sum_congr rfl fun q _ => ?_
  rw [Ublk4_apply V c (pt4 i n) r q x (Cert.GWSpec.blockIdx n q) (by rw [hd]; exact hx) (by rw [hm]),
    fblk4_apply V c (pt4 i n) q (Cert.GWSpec.blockIdx n q) (by rw [hm]),
    Bblk4_apply V c (pt4 i n) q j (Cert.GWSpec.blockIdx n q) (by rw [hm])]

def accAt4 (c : Dev nD) (i : Fin 8) (r : Fin 1024) (j : Fin 256) (n : Fin 8) : EReal :=
  sAt4 V c (pt4 i n).val (pt4 i n).isLt (ix2 r j)

theorem accAt4_zero (c : Dev nD) (i : Fin 8) (r : Fin 1024) (j : Fin 256) (x : Fin 8192) (hx : x.val = i.val * 1024 + r.val) :
    accAt4 V c i r j 0 = 0 + part4 V c x j 0 := by
  unfold accAt4
  have h0 : (pt4 i 0).val % 8 = 0 := by rw [pt4_val]; show (i.val * 8 + 0) % 8 = 0; omega
  refine (congrFun (sAt4_reset V c (pt4 i 0) h0) (ix2 r j)).trans ?_
  refine (k1_pay2_apply (Ublk4 V c (pt4 i 0)) (fblk4 V c (pt4 i 0)) (Bblk4 V c (pt4 i 0)) (k1_pay1 (F := Ideal)) r j).trans ?_
  rw [k1_pay1_apply, blkSum4_eq V c i 0 r j x hx]

theorem accAt4_succ (c : Dev nD) (i : Fin 8) (r : Fin 1024) (j : Fin 256) (x : Fin 8192) (hx : x.val = i.val * 1024 + r.val)
    (n : Fin 8) (h : n.val + 1 < 8) :
    accAt4 V c i r j ⟨n.val + 1, h⟩ = accAt4 V c i r j n + part4 V c x j ⟨n.val + 1, h⟩ := by
  unfold accAt4
  have hne : ¬(pt4 i ⟨n.val + 1, h⟩).val % 8 = 0 := by rw [pt4_val]; show ¬(i.val * 8 + (n.val + 1)) % 8 = 0; omega
  refine (congrFun (sAt4_step V c (pt4 i ⟨n.val + 1, h⟩) hne) (ix2 r j)).trans ?_
  refine (k1_pay2_apply (Ublk4 V c (pt4 i ⟨n.val + 1, h⟩)) (fblk4 V c (pt4 i ⟨n.val + 1, h⟩)) (Bblk4 V c (pt4 i ⟨n.val + 1, h⟩))
    (sAt4 V c ((pt4 i ⟨n.val + 1, h⟩).val - 1) (Nat.lt_of_le_of_lt (Nat.sub_le _ _) (pt4 i ⟨n.val + 1, h⟩).isLt)) r j).trans ?_
  rw [blkSum4_eq V c i ⟨n.val + 1, h⟩ r j x hx]
  refine congrArg (· + part4 V c x j ⟨n.val + 1, h⟩) ?_
  exact congrFun (sAt4_congr V c (by rw [pt4_val, pt4_val]; show i.val * 8 + (n.val + 1) - 1 = i.val * 8 + n.val; omega) _ _) (ix2 r j)

/-- After the eighth step of a row block the accumulator holds the product's entry. -/
theorem accAt4_last (c : Dev nD) (i : Fin 8) (r : Fin 1024) (j : Fin 256) (x : Fin 8192) (hx : x.val = i.val * 1024 + r.val) :
    accAt4 V c i r j 7
      = Cert.GWSpec.mm (n := 8192) (k := 8192) (p := 256)
          (Cert.GWSpec.colScale (V c main_arg2) (fun i => V c main_v0 (ix2 0 (i 0)))) (V c main_v6) (ix2 x j) := by
  rw [Cert.GWSpec.mm_blocks]
  refine (Cert.GWSpec.fold_fin_eq_sum (accAt4 V c i r j) (part4 V c x j) (accAt4_zero V c i r j x hx)
    (fun n h => accAt4_succ V c i r j x hx n h)).trans ?_
  exact Finset.sum_congr rfl fun b _ => Finset.sum_congr rfl fun q _ => rfl

end AtIdeal

section Final

variable (V : (c : Dev nD) → (b : Ref sig .tc) → Buf (Elt Ideal) ((c : Thread nD τ).loc b))

def act4 (x : EReal) : EReal := x

theorem flushVal4_apply (s : Vec Ideal S1024x256 .f32) (r : Fin 1024) (c : Fin 256) :
    flushVal1 (F := Ideal) s (ix2 r c) = act4 (s (ix2 r c)) := rfl

abbrev G4 (c : Dev nD) : Buf (Elt Ideal) ((c : Thread nD τ).loc main_v7) :=
  fun i => act4 (Cert.GWSpec.mm (n := 8192) (k := 8192) (p := 256)
    (Cert.GWSpec.colScale (V c main_arg2) (fun i => V c main_v0 (ix2 0 (i 0)))) (V c main_v6) i)

theorem sAt4_last_apply (c : Dev nD) (t : Fin cfg4.N) (h7 : t.val % 8 = 7) (r : Fin 1024) (j : Fin 256) (x : Fin 8192)
    (hx : x.val = t.val / 8 * 1024 + r.val) :
    sAt4 V c t.val t.isLt (ix2 r j)
      = Cert.GWSpec.mm (n := 8192) (k := 8192) (p := 256)
          (Cert.GWSpec.colScale (V c main_arg2) (fun i => V c main_v0 (ix2 0 (i 0)))) (V c main_v6) (ix2 x j) := by
  have hN : cfg4.N = 64 := N_4
  have ht := t.isLt
  have key := accAt4_last V c ⟨t.val / 8, by omega⟩ r j x hx
  unfold accAt4 at key
  refine (congrFun (sAt4_congr V c ?_ t.isLt _) (ix2 r j)).trans key
  rw [pt4_val]
  show t.val = t.val / 8 * 8 + 7
  omega

theorem flushed4_eq (c : Dev nD) (t : Fin cfg4.N) (hf : (cfg4.win 3).flush t = true) :
    (dat4 V c).flushed 3 t = ((cfg4.win 3).blk t).view.read (Elt Ideal) (G4 V c) := by
  have h7 : t.val % 8 = 7 := (flush4_3 t).mp hf
  have hN : cfg4.N = 64 := N_4
  have ht := t.isLt
  obtain ⟨-, -, -, -, -, -, e0, e1⟩ := idx4_facts t
  show (cfg4.win 3).cut (grid4.coords t) ((dat4 V c).after 3 t) = _
  rw [after4_3]
  funext y
  obtain ⟨r, j, rfl⟩ : ∃ (r : Fin 1024) (j : Fin 256), y = ix2 r j := ⟨y 0, y 1, eq_ix2 y⟩
  have hemb : ((cfg4.win 3).blk t).view.emb (ix2 r j) = ix2 (n0 := 8192) (n1 := 256) ⟨t.val / 8 * 1024 + r.val, by omega⟩ j :=
    funext fun a => Fin.ext (by
      match a with
      | ⟨0, _⟩ => show win4_3.index t (0 : Fin 2) * 1024 + 1 * r.val = t.val / 8 * 1024 + r.val; rw [e0]; omega
      | ⟨1, _⟩ => show win4_3.index t (1 : Fin 2) * 256 + 1 * j.val = j.val; rw [e1]; omega)
  show flushVal1 (sAt4 V c t.val t.isLt) (ix2 r j) = G4 V c (((cfg4.win 3).blk t).view.emb (ix2 r j))
  rw [hemb, flushVal4_apply]
  exact congrArg act4 (sAt4_last_apply V c t h7 r j _ rfl)

theorem mem_blk4 (t : Fin cfg4.N) (i : S8192x256.Idx) :
    i ∈ ((cfg4.win 3).blk t).view.set ↔ ∀ a : Fin 2, win4_3.index t a * S1024x256.size a ≤ (i a).val ∧ (i a).val < win4_3.index t a * S1024x256.size a + S1024x256.size a := by
  show i ∈ ((View.whole main_v7).slice (win4_3.rect t)).set ↔ _
  rw [View.set_slice_whole, Rect.mem_set_unit]
  exact Iff.rfl

/-- The row blocks written back cover the result array. -/
theorem final4_act (c : Dev nD) :
    (dat4 V c).arrAt 3 cfg4.N = fun i => act4 (Cert.GWSpec.mm (n := 8192) (k := 8192) (p := 256)
      (Cert.GWSpec.colScale (V c main_arg2) (fun i => V c main_v0 (ix2 0 (i 0)))) (V c main_v6) i) :=
  (dat4 V c).arrAt_eq_of_cover 3 (G4 V c) (flushed4_eq V c) fun i => by
    have hi0 : (i 0).val < 8192 := (i 0).isLt
    have hi1 : (i 1).val < 256 := (i 1).isLt
    have hv : (pt4 ⟨(i 0).val / 1024, by omega⟩ 7).val = (i 0).val / 1024 * 8 + 7 := rfl
    obtain ⟨-, -, -, -, -, -, e0, e1⟩ := idx4_facts (pt4 ⟨(i 0).val / 1024, by omega⟩ 7)
    refine ⟨pt4 ⟨(i 0).val / 1024, by omega⟩ 7, (flush4_3 _).mpr (by rw [hv]; omega), ?_⟩
    rw [mem_blk4]
    intro a
    match a with
    | ⟨0, _⟩ =>
      show win4_3.index (pt4 ⟨(i 0).val / 1024, by omega⟩ 7) (0 : Fin 2) * 1024 ≤ (i 0).val ∧ (i 0).val < win4_3.index (pt4 ⟨(i 0).val / 1024, by omega⟩ 7) (0 : Fin 2) * 1024 + 1024
      rw [e0, hv]; omega
    | ⟨1, _⟩ =>
      show win4_3.index (pt4 ⟨(i 0).val / 1024, by omega⟩ 7) (1 : Fin 2) * 256 ≤ (i 1).val ∧ (i 1).val < win4_3.index (pt4 ⟨(i 0).val / 1024, by omega⟩ 7) (1 : Fin 2) * 256 + 256
      rw [e1]; omega

theorem final4 (c : Dev nD) :
    (dat4 V c).arrAt 3 cfg4.N = Cert.GWSpec.mm (n := 8192) (k := 8192) (p := 256)
      (Cert.GWSpec.colScale (V c main_arg2) (fun i => V c main_v0 (ix2 0 (i 0)))) (V c main_v6) :=
  final4_act V c

end Final

end Cert.KernelIdeal.GW

end
-- ==== Proof.KI.Spectral5Value.lean ====
/-
  What the second layer's filtered forward transform leaves in its result array, on the extended reals: the sum over 8192 contraction
  indices is the sum over the eight blocks of 1024, so the row blocks written back tile the whole product (U ⊙ f) · B.
-/
import proofs.«113573_j27281632264453_1_alg».proof.Proof.KI.Spectral5
import proofs.«113573_j27281632264453_1_alg».proof.Proof.KI.SpectralPayload
import proofs.«113573_j27281632264453_1_alg».proof.Proof.Algebra

noncomputable section

namespace Cert.KernelIdeal.GW

open Idealize.ShloMosaic Idealize.ShloMosaic.TcCoe Idealize.SL.Sem
open Idealize.ShloMosaic.Pipeline (Dat)
open Cert.KernelIdeal Cert.KernelIdeal.Gen Idealize.ShloMosaic.ValueIdx

variable {F : FTy → Type} [FloatOps F]
variable (V : (c : Dev nD) → (b : Ref sig .tc) → Buf (Elt F) ((c : Thread nD τ).loc b))

theorem idx5_facts : ∀ t : Fin cfg5.N,
    win5_0.index t (0 : Fin 2) = t.val / 8 ∧ win5_0.index t (1 : Fin 2) = t.val % 8
    ∧ win5_1.index t (0 : Fin 2) = t.val % 8 ∧ win5_1.index t (1 : Fin 2) = 0
    ∧ win5_2.index t (0 : Fin 2) = 0 ∧ win5_2.index t (1 : Fin 2) = t.val % 8
    ∧ win5_3.index t (0 : Fin 2) = t.val / 8 ∧ win5_3.index t (1 : Fin 2) = 0 :=
  (by decide +kernel : ∀ t : Fin grid5.N, _)

abbrev Uarr5 (c : Dev nD) : Vec F S8192x8192 .f32 := V c main_arg1
abbrev Barr5 (c : Dev nD) : Vec F S8192x256 .f32 := V c main_v7
abbrev farr5 (c : Dev nD) : Vec F S1x8192 .f32 := V c main_v2
abbrev Ublk5 (c : Dev nD) (t : Fin cfg5.N) : Vec F S1024x1024 .f32 := iblk5 V c 0 t
abbrev Bblk5 (c : Dev nD) (t : Fin cfg5.N) : Vec F S1024x256 .f32 := iblk5 V c 1 t
abbrev fblk5 (c : Dev nD) (t : Fin cfg5.N) : Vec F S1x1024 .f32 := iblk5 V c 2 t

theorem Ublk5_apply (c : Dev nD) (t : Fin cfg5.N) (r q : Fin 1024) (x : Fin 8192) (y : Fin 8192)
    (hx : x.val = t.val / 8 * 1024 + r.val) (hy : y.val = t.val % 8 * 1024 + q.val) :
    Ublk5 V c t (ix2 r q) = Uarr5 V c (ix2 x y) := by
  obtain ⟨e0, e1, -⟩ := idx5_facts t
  show V c main_arg1 (((cfg5.win 0).blk t).view.emb (ix2 r q)) = V c main_arg1 (ix2 x y)
  refine congrArg (V c main_arg1) (funext fun a => Fin.ext ?_)
  match a with
  | ⟨0, _⟩ => show win5_0.index t (0 : Fin 2) * 1024 + 1 * r.val = x.val; rw [e0, hx]; omega
  | ⟨1, _⟩ => show win5_0.index t (1 : Fin 2) * 1024 + 1 * q.val = y.val; rw [e1, hy]; omega

theorem Bblk5_apply (c : Dev nD) (t : Fin cfg5.N) (q : Fin 1024) (j : Fin 256) (y : Fin 8192)
    (hy : y.val = t.val % 8 * 1024 + q.val) :
    Bblk5 V c t (ix2 q j) = Barr5 V c (ix2 y j) := by
  obtain ⟨-, -, e0, e1, -⟩ := idx5_facts t
  show V c main_v7 (((cfg5.win 1).blk t).view.emb (ix2 q j)) = V c main_v7 (ix2 y j)
  refine congrArg (V c main_v7) (funext fun a => Fin.ext ?_)
  match a with
  | ⟨0, _⟩ => show win5_1.index t (0 : Fin 2) * 1024 + 1 * q.val = y.val; rw [e0, hy]; omega
  | ⟨1, _⟩ => show win5_1.index t (1 : Fin 2) * 256 + 1 * j.val = j.val; rw [e1]; omega

theorem fblk5_apply (c : Dev nD) (t : Fin cfg5.N) (q : Fin 1024) (y : Fin 8192)
    (hy : y.val = t.val % 8 * 1024 + q.val) :
    fblk5 V c t (ix2 0 q) = farr5 V c (ix2 0 y) := by
  obtain ⟨-, -, -, -, e0, e1, -⟩ := idx5_facts t
  show V c main_v2 (((cfg5.win 2).blk t).view.emb (ix2 0 q)) = V c main_v2 (ix2 0 y)
  refine congrArg (V c main_v2) (funext fun a => Fin.ext ?_)
  match a with
  | ⟨0, _⟩ => show win5_2.index t (0 : Fin 2) * 1 + 1 * 0 = 0; rw [e0]
  | ⟨1, _⟩ => show win5_2.index t (1 : Fin 2) * 1024 + 1 * q.val = y.val; rw [e1, hy]; omega

section AtIdeal

variable (V : (c : Dev nD) → (b : Ref sig .tc) → Buf (Elt Ideal) ((c : Thread nD τ).loc b))

def pt5 (i n : Fin 8) : Fin cfg5.N := ⟨i.val * 8 + n.val, by rw [show cfg5.N = 64 from N_5]; omega⟩

theorem pt5_val (i n : Fin 8) : (pt5 i n).val = i.val * 8 + n.val := rfl

theorem sAt5_congr (c : Dev nD) {a b : ℕ} (h : a = b) (ha : a < cfg5.N) (hb : b < cfg5.N) :
    sAt5 V c a ha = sAt5 V c b hb := by subst h; rfl

def part5 (c : Dev nD) (x : Fin 8192) (j : Fin 256) (b : Fin 8) : EReal :=
  ∑ q : Fin 1024, (Uarr5 V c (ix2 x (Cert.GWSpec.blockIdx b q)) * farr5 V c (ix2 0 (Cert.GWSpec.blockIdx b q)))
    * Barr5 V c (ix2 (Cert.GWSpec.blockIdx b q) j)

theorem blkSum5_eq (c : Dev nD) (i n : Fin 8) (r : Fin 1024) (j : Fin 256) (x : Fin 8192) (hx : x.val = i.val * 1024 + r.val) :
    ∑ q : Fin 1024, (Ublk5 V c (pt5 i n) (ix2 r q) * fblk5 V c (pt5 i n) (ix2 0 q)) * Bblk5 V c (pt5 i n) (ix2 q j)
      = part5 V c x j n := by
  unfold part5
  have hd : (pt5 i n).val / 8 = i.val := by rw [pt5_val]; omega
  have hm : (pt5 i n).val % 8 = n.val := by rw [pt5_val]; omega
  refine Finset.sum_congr rfl fun q _ => ?_
  rw [Ublk5_apply V c (pt5 i n) r q x (Cert.GWSpec.blockIdx n q) (by rw [hd]; exact hx) (by rw [hm]),
    fblk5_apply V c (pt5 i n) q (Cert.GWSpec.blockIdx n q) (by rw [hm]),
    Bblk5_apply V c (pt5 i n) q j (Cert.GWSpec.blockIdx n q) (by rw [hm])]

def accAt5 (c : Dev nD) (i : Fin 8) (r : Fin 1024) (j : Fin 256) (n : Fin 8) : EReal :=
  sAt5 V c (pt5 i n).val (pt5 i n).isLt (ix2 r j)

theorem accAt5_zero (c : Dev nD) (i : Fin 8) (r : Fin 1024) (j : Fin 256) (x : Fin 8192) (hx : x.val = i.val * 1024 + r.val) :
    accAt5 V c i r j 0 = 0 + part5 V c x j 0 := by
  unfold accAt5
  have h0 : (pt5 i 0).val % 8 = 0 := by rw [pt5_val]; show (i.val * 8 + 0) % 8 = 0; omega
  refine (congrFun (sAt5_reset V c (pt5 i 0) h0) (ix2 r j)).trans ?_
  refine (k1_pay2_apply (Ublk5 V c (pt5 i 0)) (fblk5 V c (pt5 i 0)) (Bblk5 V c (pt5 i 0)) (k1_pay1 (F := Ideal)) r j).trans ?_
  rw [k1_pay1_apply, blkSum5_eq V c i 0 r j x hx]

theorem accAt5_succ (c : Dev nD) (i : Fin 8) (r : Fin 1024) (j : Fin 256) (x : Fin 8192) (hx : x.val = i.val * 1024 + r.val)
    (n : Fin 8) (h : n.val + 1 < 8) :
    accAt5 V c i r j ⟨n.val + 1, h⟩ = accAt5 V c i r j n + part5 V c x j ⟨n.val + 1, h⟩ := by
  unfold accAt5
  have hne : ¬(pt5 i ⟨n.val + 1, h⟩).val % 8 = 0 := by rw [pt5_val]; show ¬(i.val * 8 + (n.val + 1)) % 8 = 0; omega
  refine (congrFun (sAt5_step V c (pt5 i ⟨n.val + 1, h⟩) hne) (ix2 r j)).trans ?_
  refine (k1_pay2_apply (Ublk5 V c (pt5 i ⟨n.val + 1, h⟩)) (fblk5 V c (pt5 i ⟨n.val + 1, h⟩)) (Bblk5 V c (pt5 i ⟨n.val + 1, h⟩))
    (sAt5 V c ((pt5 i ⟨n.val + 1, h⟩).val - 1) (Nat.lt_of_le_of_lt (Nat.sub_le _ _) (pt5 i ⟨n.val + 1, h⟩).isLt)) r j).trans ?_
  rw [blkSum5_eq V c i ⟨n.val + 1, h⟩ r j x hx]
  refine congrArg (· + part5 V c x j ⟨n.val + 1, h⟩) ?_
  exact congrFun (sAt5_congr V c (by rw [pt5_val, pt5_val]; show i.val * 8 + (n.val + 1) - 1 = i.val * 8 + n.val; omega) _ _) (ix2 r j)

/-- After the eighth step of a row block the accumulator holds the product's entry. -/
theorem accAt5_last (c : Dev nD) (i : Fin 8) (r : Fin 1024) (j : Fin 256) (x : Fin 8192) (hx : x.val = i.val * 1024 + r.val) :
    accAt5 V c i r j 7
      = Cert.GWSpec.mm (n := 8192) (k := 8192) (p := 256)
          (Cert.GWSpec.colScale (V c main_arg1) (fun i => V c main_v2 (ix2 0 (i 0)))) (V c main_v7) (ix2 x j) := by
  rw [Cert.GWSpec.mm_blocks]
  refine (Cert.GWSpec.fold_fin_eq_sum (accAt5 V c i r j) (part5 V c x j) (accAt5_zero V c i r j x hx)
    (fun n h => accAt5_succ V c i r j x hx n h)).trans ?_
  exact Finset.sum_congr rfl fun b _ => Finset.sum_congr rfl fun q _ => rfl

end AtIdeal

section Final

variable (V : (c : Dev nD) → (b : Ref sig .tc) → Buf (Elt Ideal) ((c : Thread nD τ).loc b))

def act5 (x : EReal) : EReal := x

theorem flushVal5_apply (s : Vec Ideal S1024x256 .f32) (r : Fin 1024) (c : Fin 256) :
    flushVal1 (F := Ideal) s (ix2 r c) = act5 (s (ix2 r c)) := rfl

abbrev G5 (c : Dev nD) : Buf (Elt Ideal) ((c : Thread nD τ).loc main_v8) :=
  fun i => act5 (Cert.GWSpec.mm (n := 8192) (k := 8192) (p := 256)
    (Cert.GWSpec.colScale (V c main_arg1) (fun i => V c main_v2 (ix2 0 (i 0)))) (V c main_v7) i)

theorem sAt5_last_apply (c : Dev nD) (t : Fin cfg5.N) (h7 : t.val % 8 = 7) (r : Fin 1024) (j : Fin 256) (x : Fin 8192)
    (hx : x.val = t.val / 8 * 1024 + r.val) :
    sAt5 V c t.val t.isLt (ix2 r j)
      = Cert.GWSpec.mm (n := 8192) (k := 8192) (p := 256)
          (Cert.GWSpec.colScale (V c main_arg1) (fun i => V c main_v2 (ix2 0 (i 0)))) (V c main_v7) (ix2 x j) := by
  have hN : cfg5.N = 64 := N_5
  have ht := t.isLt
  have key := accAt5_last V c ⟨t.val / 8, by omega⟩ r j x hx
  unfold accAt5 at key
  refine (congrFun (sAt5_congr V c ?_ t.isLt _) (ix2 r j)).trans key
  rw [pt5_val]
  show t.val = t.val / 8 * 8 + 7
  omega

theorem flushed5_eq (c : Dev nD) (t : Fin cfg5.N) (hf : (cfg5.win 3).flush t = true) :
    (dat5 V c).flushed 3 t = ((cfg5.win 3).blk t).view.read (Elt Ideal) (G5 V c) := by
  have h7 : t.val % 8 = 7 := (flush5_3 t).mp hf
  have hN : cfg5.N = 64 := N_5
  have ht := t.isLt
  obtain ⟨-, -, -, -, -, -, e0, e1⟩ := idx5_facts t
  show (cfg5.win 3).cut (grid5.coords t) ((dat5 V c).after 3 t) = _
  rw [after5_3]
  funext y
  obtain ⟨r, j, rfl⟩ : ∃ (r : Fin 1024) (j : Fin 256), y = ix2 r j := ⟨y 0, y 1, eq_ix2 y⟩
  have hemb : ((cfg5.win 3).blk t).view.emb (ix2 r j) = ix2 (n0 := 8192) (n1 := 256) ⟨t.val / 8 * 1024 + r.val, by omega⟩ j :=
    funext fun a => Fin.ext (by
      match a with
      | ⟨0, _⟩ => show win5_3.index t (0 : Fin 2) * 1024 + 1 * r.val = t.val / 8 * 1024 + r.val; rw [e0]; omega
      | ⟨1, _⟩ => show win5_3.index t (1 : Fin 2) * 256 + 1 * j.val = j.val; rw [e1]; omega)
  show flushVal1 (sAt5 V c t.val t.isLt) (ix2 r j) = G5 V c (((cfg5.win 3).blk t).view.emb (ix2 r j))
  rw [hemb, flushVal5_apply]
  exact congrArg act5 (sAt5_last_apply V c t h7 r j _ rfl)

theorem mem_blk5 (t : Fin cfg5.N) (i : S8192x256.Idx) :
    i ∈ ((cfg5.win 3).blk t).view.set ↔ ∀ a : Fin 2, win5_3.index t a * S1024x256.size a ≤ (i a).val ∧ (i a).val < win5_3.index t a * S1024x256.size a + S1024x256.size a := by
  show i ∈ ((View.whole main_v8).slice (win5_3.rect t)).set ↔ _
  rw [View.set_slice_whole, Rect.mem_set_unit]
  exact Iff.rfl

/-- The row blocks written back cover the result array. -/
theorem final5_act (c : Dev nD) :
    (dat5 V c).arrAt 3 cfg5.N = fun i => act5 (Cert.GWSpec.mm (n := 8192) (k := 8192) (p := 256)
      (Cert.GWSpec.colScale (V c main_arg1) (fun i => V c main_v2 (ix2 0 (i 0)))) (V c main_v7) i) :=
  (dat5 V c).arrAt_eq_of_cover 3 (G5 V c) (flushed5_eq V c) fun i => by
    have hi0 : (i 0).val < 8192 := (i 0).isLt
    have hi1 : (i 1).val < 256 := (i 1).isLt
    have hv : (pt5 ⟨(i 0).val / 1024, by omega⟩ 7).val = (i 0).val / 1024 * 8 + 7 := rfl
    obtain ⟨-, -, -, -, -, -, e0, e1⟩ := idx5_facts (pt5 ⟨(i 0).val / 1024, by omega⟩ 7)
    refine ⟨pt5 ⟨(i 0).val / 1024, by omega⟩ 7, (flush5_3 _).mpr (by rw [hv]; omega), ?_⟩
    rw [mem_blk5]
    intro a
    match a with
    | ⟨0, _⟩ =>
      show win5_3.index (pt5 ⟨(i 0).val / 1024, by omega⟩ 7) (0 : Fin 2) * 1024 ≤ (i 0).val ∧ (i 0).val < win5_3.index (pt5 ⟨(i 0).val / 1024, by omega⟩ 7) (0 : Fin 2) * 1024 + 1024
      rw [e0, hv]; omega
    | ⟨1, _⟩ =>
      show win5_3.index (pt5 ⟨(i 0).val / 1024, by omega⟩ 7) (1 : Fin 2) * 256 ≤ (i 1).val ∧ (i 1).val < win5_3.index (pt5 ⟨(i 0).val / 1024, by omega⟩ 7) (1 : Fin 2) * 256 + 256
      rw [e1]; omega

theorem final5 (c : Dev nD) :
    (dat5 V c).arrAt 3 cfg5.N = Cert.GWSpec.mm (n := 8192) (k := 8192) (p := 256)
      (Cert.GWSpec.colScale (V c main_arg1) (fun i => V c main_v2 (ix2 0 (i 0)))) (V c main_v7) :=
  final5_act V c

end Final

end Cert.KernelIdeal.GW

end
-- ==== Proof.KI.Value.lean ====
/-
  The value of the whole run on the extended reals: each region leaves one operation of the specification applied to what
  it found, and chained through the contents each region is entered from the last array is the network of the arguments.
-/
import proofs.«113573_j27281632264453_1_alg».proof.Proof.KI.Contents
import proofs.«113573_j27281632264453_1_alg».proof.Proof.KI.DenseValue
import proofs.«113573_j27281632264453_1_alg».proof.Proof.KI.HostReads
import proofs.«113573_j27281632264453_1_alg».proof.Proof.Algebra
import proofs.«113573_j27281632264453_1_alg».proof.Proof.KI.Spectral1Value
import proofs.«113573_j27281632264453_1_alg».proof.Proof.KI.Spectral2Value
import proofs.«113573_j27281632264453_1_alg».proof.Proof.KI.Spectral4Value
import proofs.«113573_j27281632264453_1_alg».proof.Proof.KI.Spectral5Value

set_option maxRecDepth 16384

noncomputable section

namespace Cert.KernelIdeal.GW

open Idealize.ShloMosaic Idealize.ShloMosaic.TcCoe Idealize.SL.Sem Idealize.ShloMosaic.ValueIdx
open Idealize.ShloMosaic.Pipeline (Dat)
open Cert.KernelIdeal.Gen Cert.GWSpec

/-- A scale vector of ones leaves the product unchanged. -/
theorem mm_colScale_ones (U : Mat 8192 8192) (B : Mat 8192 256) (f : Vect 8192) (hf : ∀ i, f i = 1) :
    mm (colScale U f) B = mm U B := by
  rw [show f = fun _ => 1 from funext hf]
  exact mm_colScale_one U B

theorem colScale_entries {n k : ℕ} (U : Mat n k) (f g : Vect k) (h : ∀ i, f i = g i) : colScale U f = colScale U g := by
  rw [show f = g from funext h]

variable (m : (ℓ : Loc nD τ sig) → Buf (Elt Ideal) ℓ)

theorem En0_main_arg0 (c : Dev nD) : En0 m c main_arg0 = m ((c : Thread nD τ).loc main_arg0) := Gen.V1_of m c main_arg0 (by decide)
theorem En0_main_arg3 (c : Dev nD) : En0 m c main_arg3 = m ((c : Thread nD τ).loc main_arg3) := Gen.V1_of m c main_arg3 (by decide)
theorem En1_main_arg2 (c : Dev nD) : En1 m c main_arg2 = m ((c : Thread nD τ).loc main_arg2) :=
  (Function.update_of_ne (by decide) ..).trans (Gen.V1_of m c main_arg2 (by decide))
theorem En1_main_v0 (c : Dev nD) : En1 m c main_v0 = Gen.V1 m c main_v0 := Function.update_of_ne (by decide) ..
theorem En2_main_arg1 (c : Dev nD) : En2 m c main_arg1 = m ((c : Thread nD τ).loc main_arg1) :=
  (Function.update_of_ne (by decide) ..).trans <| (Function.update_of_ne (by decide) ..).trans (Gen.V1_of m c main_arg1 (by decide))
theorem En2_main_v1 (c : Dev nD) : En2 m c main_v1 = Gen.V1 m c main_v1 :=
  (Function.update_of_ne (by decide) ..).trans (Function.update_of_ne (by decide) ..)
theorem En3_main_arg4 (c : Dev nD) : En3 m c main_arg4 = m ((c : Thread nD τ).loc main_arg4) :=
  (Function.update_of_ne (by decide) ..).trans <| (Function.update_of_ne (by decide) ..).trans <|
    (Function.update_of_ne (by decide) ..).trans (Gen.V1_of m c main_arg4 (by decide))
theorem En4_main_arg2 (c : Dev nD) : En4 m c main_arg2 = m ((c : Thread nD τ).loc main_arg2) :=
  (Function.update_of_ne (by decide) ..).trans <| (Function.update_of_ne (by decide) ..).trans <|
    (Function.update_of_ne (by decide) ..).trans (En1_main_arg2 m c)
theorem En4_main_v0 (c : Dev nD) : En4 m c main_v0 = Gen.V1 m c main_v0 :=
  (Function.update_of_ne (by decide) ..).trans <| (Function.update_of_ne (by decide) ..).trans <|
    (Function.update_of_ne (by decide) ..).trans (En1_main_v0 m c)
theorem En5_main_arg1 (c : Dev nD) : En5 m c main_arg1 = m ((c : Thread nD τ).loc main_arg1) :=
  (Function.update_of_ne (by decide) ..).trans <| (Function.update_of_ne (by decide) ..).trans <|
    (Function.update_of_ne (by decide) ..).trans (En2_main_arg1 m c)
theorem En5_main_v2 (c : Dev nD) : En5 m c main_v2 = Gen.V1 m c main_v2 :=
  (Function.update_of_ne (by decide) ..).trans <| (Function.update_of_ne (by decide) ..).trans <|
    (Function.update_of_ne (by decide) ..).trans <| (Function.update_of_ne (by decide) ..).trans (Function.update_of_ne (by decide) ..)

theorem res0_eq (c : Dev nD) :
    res0 m c = mm (n := 8192) (k := 512) (p := 256) (m ((c : Thread nD τ).loc main_arg0)) (m ((c : Thread nD τ).loc main_arg3)) := by
  refine (final0 (En0 m) c).trans ?_
  rw [En0_main_arg0, En0_main_arg3]

theorem res1_eq (c : Dev nD) :
    res1 m c = mm (n := 8192) (k := 8192) (p := 256) (m ((c : Thread nD τ).loc main_arg2)) (res0 m c) := by
  refine (final1 (En1 m) c).trans ?_
  rw [En1_main_arg2, En1_main_v3, En1_main_v0]
  exact mm_colScale_ones _ _ _ fun i => ones_row m c (i 0)

theorem res2_eq (c : Dev nD) :
    res2 m c = Cert.GWSpec.posPart (mm (n := 8192) (k := 8192) (p := 256) (colScale (m ((c : Thread nD τ).loc main_arg1)) (m ((c : Thread nD τ).loc main_arg5))) (res1 m c)) := by
  refine (final2 (En2 m) c).trans ?_
  rw [En2_main_arg1, En2_main_v4, En2_main_v1]
  refine congrArg (fun S => Cert.GWSpec.posPart (mm (n := 8192) (k := 8192) (p := 256) S (res1 m c))) ?_
  exact colScale_entries _ _ _ fun i => (filter1_row m c (i 0)).trans (congrArg _ (eq_ix1 i).symm)

theorem res3_eq (c : Dev nD) :
    res3 m c = mm (n := 8192) (k := 256) (p := 256) (res2 m c) (m ((c : Thread nD τ).loc main_arg4)) := by
  refine (final3 (En3 m) c).trans ?_
  rw [En3_main_v5, En3_main_arg4]

theorem res4_eq (c : Dev nD) :
    res4 m c = mm (n := 8192) (k := 8192) (p := 256) (m ((c : Thread nD τ).loc main_arg2)) (res3 m c) := by
  refine (final4 (En4 m) c).trans ?_
  rw [En4_main_arg2, En4_main_v6, En4_main_v0]
  exact mm_colScale_ones _ _ _ fun i => ones_row m c (i 0)

theorem res5_eq (c : Dev nD) :
    res5 m c = mm (n := 8192) (k := 8192) (p := 256) (colScale (m ((c : Thread nD τ).loc main_arg1)) (m ((c : Thread nD τ).loc main_arg6))) (res4 m c) := by
  refine (final5 (En5 m) c).trans ?_
  rw [En5_main_arg1, En5_main_v7, En5_main_v2]
  refine congrArg (fun S => mm (n := 8192) (k := 8192) (p := 256) S (res4 m c)) ?_
  exact colScale_entries _ _ _ fun i => (filter2_row m c (i 0)).trans (congrArg _ (eq_ix1 i).symm)

/-- The last array holds the specification's network of the seven argument arrays as launched. -/
theorem result_eq (c : Dev nD) :
    res5 (F := Ideal) m c = Cert.GWSpec.net (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  rw [res5_eq, res4_eq, res3_eq, res2_eq, res1_eq, res0_eq]
  rfl

end Cert.KernelIdeal.GW

end
-- ==== Proof.lean ====
/-
  The claim assembled. Both kernel programs run and keep their arguments; so does the reference. At the extended reals the
  kernel's result is the reference's: a product accumulated block by block from zero is the plain sum over the contracted
  index, and scaling the columns by one changes nothing.
-/
import proofs.«113573_j27281632264453_1_alg».proof.Defs
import proofs.«113573_j27281632264453_1_alg».proof.Proof.Gen.Kernel
import proofs.«113573_j27281632264453_1_alg».proof.Proof.Gen.Kernel.Skeleton
import proofs.«113573_j27281632264453_1_alg».proof.Proof.Gen.Kernel.Launch
import proofs.«113573_j27281632264453_1_alg».proof.Proof.Gen.Kernel.Regions
import proofs.«113573_j27281632264453_1_alg».proof.Proof.Gen.Kernel.Points
import proofs.«113573_j27281632264453_1_alg».proof.Proof.Gen.KernelIdeal
import proofs.«113573_j27281632264453_1_alg».proof.Proof.Gen.KernelIdeal.Skeleton
import proofs.«113573_j27281632264453_1_alg».proof.Proof.Gen.KernelIdeal.Launch
import proofs.«113573_j27281632264453_1_alg».proof.Proof.Gen.KernelIdeal.Regions
import proofs.«113573_j27281632264453_1_alg».proof.Proof.Gen.KernelIdeal.Points
import proofs.«113573_j27281632264453_1_alg».proof.Proof.Gen.ReferenceIdeal
import proofs.«113573_j27281632264453_1_alg».proof.Proof.Gen.Pre_finite_inputs
import proofs.«113573_j27281632264453_1_alg».proof.Proof.Spec
import proofs.«113573_j27281632264453_1_alg».proof.Proof.RefSide
import proofs.«113573_j27281632264453_1_alg».proof.Proof.K.Run
import proofs.«113573_j27281632264453_1_alg».proof.Proof.KI.Run
import proofs.«113573_j27281632264453_1_alg».proof.Proof.KI.RunValue
import proofs.«113573_j27281632264453_1_alg».proof.Proof.KI.Value
import Idealize.ShloMosaic.Adequacy
import Idealize.ShloMosaic.Init

noncomputable section

namespace Cert.Proof

open Idealize.ShloMosaic Idealize.SL.Sem

theorem frame_Kernel_holds : frame_Kernel :=
  fun m ρ _ => Cert.Kernel.GW.frame (F := Bits) m ρ

theorem frame_KernelIdeal_holds : frame_KernelIdeal :=
  fun m ρ _ => Cert.KernelIdeal.GW.frame (F := Ideal) m ρ

theorem frame_ReferenceIdeal_holds : frame_ReferenceIdeal :=
  fun m ρ _ => (θ_run (Cert.ReferenceIdeal.defs (F := Ideal)) _ _).mono (fun _ h c => (h c).2)
    (Cert.ReferenceIdeal.GW.ref_run m ρ)

theorem algebraic_holds : algebraic_KernelIdeal_ReferenceIdeal := by
  intro m ρ m' ρ' _ hagree
  refine ⟨fun c => Cert.GWSpec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run (Cert.KernelIdeal.defs (F := Ideal)) _ _).mono
      (fun _ h c => ⟨(h c).1.trans (Cert.KernelIdeal.GW.result_eq m c), (h c).2⟩)
      (Cert.KernelIdeal.GW.run_value (F := Ideal) m ρ)
  · refine (θ_run (Cert.ReferenceIdeal.defs (F := Ideal)) _ _).mono (fun _ h c => ⟨(h c).1.trans ?_, (h c).2⟩)
      (Cert.ReferenceIdeal.GW.ref_run m' ρ')
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_Kernel_holds, frame_KernelIdeal_holds, frame_ReferenceIdeal_holds, trivial, algebraic_holds⟩

end Cert.Proof

end
